-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x64x512 : Shape := ⟨3, ![128, 64, 512]⟩
abbrev S8192 : Shape := ⟨1, ![8192]⟩
abbrev S8192x8192 : Shape := ⟨2, ![8192, 8192]⟩
abbrev S512x512 : Shape := ⟨2, ![512, 512]⟩
abbrev S512 : Shape := ⟨1, ![512]⟩
abbrev S_ : Shape := ⟨0, ![]⟩

class Facts : Prop where
  bcast_S_S128x64x512 : S_.BroadcastsInDim S128x64x512 (![] : Fin 0 → Fin S128x64x512.rank)
  reducesTo_S128x64x512_S_d0_1_2 : S128x64x512.ReducesTo [0, 1, 2] S_
  h_S_ : 0 < S_.numel
  bcast_S_S8192 : S_.BroadcastsInDim S8192 (![] : Fin 0 → Fin S8192.rank)
  reducesTo_S8192_S_d0 : S8192.ReducesTo [0] S_
  bcast_S_S8192x8192 : S_.BroadcastsInDim S8192x8192 (![] : Fin 0 → Fin S8192x8192.rank)
  reducesTo_S8192x8192_S_d0_1 : S8192x8192.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S512 .f32) (main_arg12 : FVec F S512x512 .f32) (main_arg13 : FVec F S512 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x512 .f32 := Host.absf main_arg12
  let main_cst_22 : FVec F S_ .f32 := constant S_ .f32 0x7F800000#32
  let main_v60 : FVec F S512x512 .f32 := broadcastInDim S512x512 ![] bcast_S_S512x512 main_cst_22
  let main_v61 : IVec S512x512 1 := cmpf .olt main_v59 main_v60
  let main_c_23 : IVec S_ 1 := constantI S_ 1 1#1
  let main_v62 : IVec S_ 1 := (fun x v => Host.reduce IntOp.andi x v reducesTo_S512x512_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_v63 main_v67

def fn_part2 {F : FTy → Type} [FloatOps F] (main_arg7 : FVec F S512 .f32) (main_arg8 : FVec F S512x512 .f32) (main_arg9 : FVec F S512 .f32) (main_arg10 : FVec F S512x512 .f32) (main_arg11 : FVec F S512 .f32) (main_arg12 : FVec F S512x512 .f32) (main_arg13 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_arg12 main_arg13 main_v48 main_v49 main_v50

def fn_part1 {F : FTy → Type} [FloatOps F] (main_arg4 : FVec F S512x512 .f32) (main_arg5 : FVec F S512 .f32) (main_arg6 : FVec F S512x512 .f32) (main_arg7 : FVec F S512 .f32) (main_arg8 : FVec F S512x512 .f32) (main_arg9 : FVec F S512 .f32) (main_arg10 : FVec F S512x512 .f32) (main_arg11 : FVec F S512 .f32) (main_arg12 : FVec F S512x512 .f32) (main_arg13 : FVec F S512 .f32) (main_v13 : IVec S_ 1) (main_v16 : IVec S8192x8192 1) : IVec S_ 1 :=
  let main_c_5 : IVec S_ 1 := constantI S_ 1 1#1
  let main_v17 : IVec S_ 1 := (fun x v => Host.reduce IntOp.andi x v reducesTo_S8192x8192_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S128x64x512 .f32) (main_arg1 : FVec F S8192 .f32) (main_arg2 : FVec F S8192x8192 .f32) (main_arg3 : FVec F S8192x8192 .f32) (main_arg4 : FVec F S512x512 .f32) (main_arg5 : FVec F S512 .f32) (main_arg6 : FVec F S512x512 .f32) (main_arg7 : FVec F S512 .f32) (main_arg8 : FVec F S512x512 .f32) (main_arg9 : FVec F S512 .f32) (main_arg10 : FVec F S512x512 .f32) (main_arg11 : FVec F S512 .f32) (main_arg12 : FVec F S512x512 .f32) (main_arg13 : FVec F S512 .f32) : IVec S_ 1 :=
  let main_v0 : FVec F S128x64x512 .f32 := Host.absf main_arg0
  let main_cst : FVec F S_ .f32 := constant S_ .f32 0x7F800000#32
  let main_v1 : FVec F S128x64x512 .f32 := broadcastInDim S128x64x512 ![] bcast_S_S128x64x512 main_cst
  let main_v2 : IVec S128x64x512 1 := cmpf .olt main_v0 main_v1
  let main_c : IVec S_ 1 := constantI S_ 1 1#1
  let main_v3 : IVec S_ 1 := (fun x v => Host.reduce IntOp.andi x v reducesTo_S128x64x512_S_d0_1_2 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S8192x8192 .f32 := Host.absf main_arg3
  let main_cst_4 : FVec F S_ .f32 := constant S_ .f32 0x7F800000#32
  let main_v15 : FVec F S8192x8192 .f32 := broadcastInDim S8192x8192 ![] bcast_S_S8192x8192 main_cst_4
  let main_v16 : IVec S8192x8192 1 := cmpf .olt main_v14 main_v15
  fn_part1 (F := F) main_arg4 main_arg5 main_arg6 main_arg7 main_arg8 main_arg9 main_arg10 main_arg11 main_arg12 main_arg13 main_v13 main_v16
-- ==== Kernel.lean ====
abbrev S128x64x512 : Shape := ⟨3, ![128, 64, 512]⟩
abbrev S8192 : Shape := ⟨1, ![8192]⟩
abbrev S8192x8192 : Shape := ⟨2, ![8192, 8192]⟩
abbrev S512x512 : Shape := ⟨2, ![512, 512]⟩
abbrev S512 : Shape := ⟨1, ![512]⟩
abbrev S8192x512 : Shape := ⟨2, ![8192, 512]⟩
abbrev S1x8192 : Shape := ⟨2, ![1, 8192]⟩
abbrev S_ : Shape := ⟨0, ![]⟩
abbrev S1x1 : Shape := ⟨2, ![1, 1]⟩
abbrev S1x512 : Shape := ⟨2, ![1, 512]⟩
abbrev S1024x512 : Shape := ⟨2, ![1024, 512]⟩
abbrev S1x1024 : Shape := ⟨2, ![1, 1024]⟩
abbrev S1024x1024 : Shape := ⟨2, ![1024, 1024]⟩

abbrev nBuf : Space → Nat
  | .hbm => 32
  | .vmem => 29
  | .smem => 0
  | _ => 0

abbrev bufTy : (tb : Table) → Fin (tcTables nBuf tb) → BufTy
  | .hbm, ⟨0, _⟩ => ⟨S128x64x512, .f32⟩
  | .hbm, ⟨1, _⟩ => ⟨S8192, .f32⟩
  | .hbm, ⟨2, _⟩ => ⟨S8192x8192, .f32⟩
  | .hbm, ⟨3, _⟩ => ⟨S8192x8192, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S512x512, .f32⟩
  | .hbm, ⟨13, _⟩ => ⟨S512, .f32⟩
  | .hbm, ⟨14, _⟩ => ⟨S8192x512, .f32⟩
  | .hbm, ⟨15, _⟩ => ⟨S1x8192, .f32⟩
  | .hbm, ⟨16, _⟩ => ⟨S_, .f32⟩
  | .hbm, ⟨17, _⟩ => ⟨S_, .f32⟩
  | .hbm, ⟨18, _⟩ => ⟨S1x1, .f32⟩
  | .hbm, ⟨19, _⟩ => ⟨S512x512, .f32⟩
  | .hbm, ⟨20, _⟩ => ⟨S1x512, .f32⟩
  | .hbm, ⟨21, _⟩ => ⟨S1x512, .f32⟩
  | .hbm, ⟨22, _⟩ => ⟨S512x512, .f32⟩
  | .hbm, ⟨23, _⟩ => ⟨S512x512, .f32⟩
  | .hbm, ⟨24, _⟩ => ⟨S512x512, .f32⟩
  | .hbm, ⟨25, _⟩ => ⟨S512x512, .f32⟩
  | .hbm, ⟨26, _⟩ => ⟨S1x512, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S8192x512, .f32⟩
  | .hbm, ⟨31, _⟩ => ⟨S128x64x512, .f32⟩
  | .local _ .vmem, ⟨0, _⟩ => ⟨S1024x512, .f32⟩
  | .local _ .vmem, ⟨1, _⟩ => ⟨S1024x512, .f32⟩
  | .local _ .vmem, ⟨2, _⟩ => ⟨S1x1024, .f32⟩
  | .local _ .vmem, ⟨3, _⟩ => ⟨S1x1024, .f32⟩
  | .local _ .vmem, ⟨4, _⟩ => ⟨S512x512, .f32⟩
  | .local _ .vmem, ⟨5, _⟩ => ⟨S1x512, .f32⟩
  | .local _ .vmem, ⟨6, _⟩ => ⟨S1x1, .f32⟩
  | .local _ .vmem, ⟨7, _⟩ => ⟨S1x512, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S512x512, .f32⟩
  | .local _ .vmem, ⟨17, _⟩ => ⟨S1x512, .f32⟩
  | .local _ .vmem, ⟨18, _⟩ => ⟨S512x512, .f32⟩
  | .local _ .vmem, ⟨19, _⟩ => ⟨S1x512, .f32⟩
  | .local _ .vmem, ⟨20, _⟩ => ⟨S512x512, .f32⟩
  | .local _ .vmem, ⟨21, _⟩ => ⟨S1x512, .f32⟩
  | .local _ .vmem, ⟨22, _⟩ => ⟨S1x512, .f32⟩
  | .local _ .vmem, ⟨23, _⟩ => ⟨S512x512, .f32⟩
  | .local _ .vmem, ⟨24, _⟩ => ⟨S1x512, .f32⟩
  | .local _ .vmem, ⟨25, _⟩ => ⟨S1024x512, .f32⟩
  | .local _ .vmem, ⟨26, _⟩ => ⟨S1024x512, .f32⟩
  | .local _ .vmem, ⟨27, _⟩ => ⟨S1024x512, .f32⟩
  | .local _ .vmem, ⟨28, _⟩ => ⟨S1024x512, .f32⟩
  | _, _ => ⟨S128x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg11_0 : Ref sig .tc := ⟨.vmem, 23, rfl⟩
abbrev cc1_stg12_0 : Ref sig .tc := ⟨.vmem, 24, rfl⟩
abbrev cc1_stg13_0 : Ref sig .tc := ⟨.vmem, 25, rfl⟩
abbrev cc1_stg13_1 : Ref sig .tc := ⟨.vmem, 26, rfl⟩
abbrev cc1_scratch0 : Ref sig .tc := ⟨.vmem, 27, rfl⟩
abbrev cc1_scratch1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem11_0 : DmaSem sig := 23
abbrev cc1_sem12_0 : DmaSem sig := 24
abbrev cc1_sem13_0 : DmaSem sig := 25
abbrev cc1_sem13_1 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v22 : BitVec 1 := Scalar.cmpi .eq arg1 c7_i32
  let v23 : BitVec 32 := Scalar.extui v22
  let c0_i32_15 : BitVec 32 := 0#32
  let v24 : BitVec 1 := Scalar.cmpi .ne v23 c0_i32_15
  v24

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S512x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S512x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S512x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S1x512 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S512x512 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .vmem S1x512 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev stage1_13 : Fin 2 → Memref sig .tc .vmem S1024x512 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, false]

class Facts₀ : Prop where
  shapeCasts_S128x64x512_S8192x512 : S128x64x512.ShapeCasts S8192x512
  shapeCasts_S8192_S1x8192 : S8192.ShapeCasts S1x8192
  reducesTo_S8192_S_d0 : S8192.ReducesTo [0] S_
  h_S_ : 0 < S_.numel
  shapeCasts_S_S1x1 : S_.ShapeCasts S1x1
  transposes_S512x512_S512x512_1_0 : S512x512.Transposes [1, 0] S512x512
  shapeCasts_S512_S1x512 : S512.ShapeCasts S1x512
  inb_S1x512_S1x512_0_0 : ∀ a, (![0, 0] : Fin 2 → Nat) a + S1x512.size a ≤ S1x512.size a
  h_S1x512 : 0 < S1x512.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S1x512_S1x512 : S1x512.ShapeCasts S1x512
  broadcasts_S1x512_S1024x512 : S1x512.Broadcasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  shapeCasts_S8192x512_S128x64x512 : S8192x512.ShapeCasts S128x64x512
  dot_S1024x512_S512x512_S1024x512_1_0_0_1_n_n_wf : DotDims.WF S1024x512 S512x512 S1024x512 [1] [0] [0] [1] [] []
  dot_S1x1024_S1024x512_S1x512_1_0_0_1_n_n_wf : DotDims.WF S1x1024 S1024x512 S1x512 [1] [0] [0] [1] [] []
  dot_S1024x1024_S1024x512_S1024x512_1_0_0_1_n_n_wf : DotDims.WF S1024x1024 S1024x512 S1024x512 [1] [0] [0] [1] [] []
  dot_S1x512_S512x512_S1x512_1_0_0_1_n_n_wf : DotDims.WF S1x512 S512x512 S1x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x8192.size a
  hwx0_1 : ∀ i : grid0.Coords, EltTy.bits .f32 = 32 ∨ (Rect.block (s := S1x8192) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x8192.size a
  hwx1_1 : ∀ i : grid1.Coords, EltTy.bits .f32 = 32 ∨ (Rect.block (s := S8192x8192) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S8192x512.size a
  hwx1_2 : ∀ i : grid1.Coords, EltTy.bits .f32 = 32 ∨ (Rect.block (s := S8192x512) S1024x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S8192x512.size a
  hwx1_3 : ∀ i : grid1.Coords, EltTy.bits .f32 = 32 ∨ (Rect.block (s := S8192x512) S1024x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S512x512.size a
  hwx1_4 : ∀ i : grid1.Coords, EltTy.bits .f32 = 32 ∨ (Rect.block (s := S512x512) S512x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512x512.size a ≤ S512x512.size a
  hwx1_6 : ∀ i : grid1.Coords, EltTy.bits .f32 = 32 ∨ (Rect.block (s := S512x512) S512x512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x512.size a ≤ S1x512.size a
  hwx1_7 : ∀ i : grid1.Coords, EltTy.bits .f32 = 32 ∨ (Rect.block (s := S1x512) S1x512.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S512x512.size a ≤ S512x512.size a
  hwx1_8 : ∀ i : grid1.Coords, EltTy.bits .f32 = 32 ∨ (Rect.block (s := S512x512) S512x512.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x512.size a ≤ S1x512.size a
  hwx1_9 : ∀ i : grid1.Coords, EltTy.bits .f32 = 32 ∨ (Rect.block (s := S1x512) S1x512.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x512.size a ≤ S1x512.size a
  hwx1_10 : ∀ i : grid1.Coords, EltTy.bits .f32 = 32 ∨ (Rect.block (s := S1x512) S1x512.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S512x512.size a ≤ S512x512.size a
  hwx1_11 : ∀ i : grid1.Coords, EltTy.bits .f32 = 32 ∨ (Rect.block (s := S512x512) S512x512.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x512.size a ≤ S1x512.size a
  hwx1_12 : ∀ i : grid1.Coords, EltTy.bits .f32 = 32 ∨ (Rect.block (s := S1x512) S1x512.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S1024x512.size a ≤ S8192x512.size a
  hwx1_13 : ∀ i : grid1.Coords, EltTy.bits .f32 = 32 ∨ (Rect.block (s := S8192x512) S1024x512.size (cc1_transform_13 i) (hinb1_13 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1x1024_S1024x512_S1x512_1_0_0_1_n_n : DotDims S1x1024 S1024x512 S1x512 where
  lhsContracting := [1]
  rhsContracting := [0]
  lhsNonContracting := [0]
  rhsNonContracting := [1]
  lhsBatch := []
  rhsBatch := []
  wf := dot_S1x1024_S1024x512_S1x512_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1x512_S512x512_S1x512_1_0_0_1_n_n : DotDims S1x512 S512x512 S1x512 where
  lhsContracting := [1]
  rhsContracting := [0]
  lhsNonContracting := [0]
  rhsNonContracting := [1]
  lhsBatch := []
  rhsBatch := []
  wf := dot_S1x512_S512x512_S1x512_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x512.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg2) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1024x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1024x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7) S512x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8) S512x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v12) S1x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v9) S512x512.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v13) S1x512.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v6) S1x512.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v10) S512x512.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v14) S1x512.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v15) S1024x512.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

abbrev idle1 : Fin 14 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun i => !(k1_cond2 i == 1#1) | ⟨_ + 14, h⟩ => absurd h (Nat.not_lt.2 (Nat.le_add_left _ _))

class Facts : Prop extends Facts₀ where

variable [Facts]
-- ==== ReferenceIdeal.lean ====
abbrev S128x64x512 : Shape := ⟨3, ![128, 64, 512]⟩
abbrev S8192 : Shape := ⟨1, ![8192]⟩
abbrev S8192x8192 : Shape := ⟨2, ![8192, 8192]⟩
abbrev S512x512 : Shape := ⟨2, ![512, 512]⟩
abbrev S512 : Shape := ⟨1, ![512]⟩
abbrev S8192x512 : Shape := ⟨2, ![8192, 512]⟩
abbrev S1x512 : Shape := ⟨2, ![1, 512]⟩
abbrev S_ : Shape := ⟨0, ![]⟩
abbrev S1x8192 : Shape := ⟨2, ![1, 8192]⟩

abbrev nBuf : Space → Nat
  | .hbm => 58
  | .vmem => 0
  | .smem => 0
  | _ => 0

abbrev bufTy : (tb : Table) → Fin (tcTables nBuf tb) → BufTy
  | .hbm, ⟨0, _⟩ => ⟨S128x64x512, .f32⟩
  | .hbm, ⟨1, _⟩ => ⟨S8192, .f32⟩
  | .hbm, ⟨2, _⟩ => ⟨S8192x8192, .f32⟩
  | .hbm, ⟨3, _⟩ => ⟨S8192x8192, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S512x512, .f32⟩
  | .hbm, ⟨13, _⟩ => ⟨S512, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S512x512, .f32⟩
  | .hbm, ⟨18, _⟩ => ⟨S8192x512, .f32⟩
  | .hbm, ⟨19, _⟩ => ⟨S1x512, .f32⟩
  | .hbm, ⟨20, _⟩ => ⟨S8192x512, .f32⟩
  | .hbm, ⟨21, _⟩ => ⟨S8192x512, .f32⟩
  | .hbm, ⟨22, _⟩ => ⟨S512x512, .f32⟩
  | .hbm, ⟨23, _⟩ => ⟨S8192x512, .f32⟩
  | .hbm, ⟨24, _⟩ => ⟨S1x512, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S512x512, .f32⟩
  | .hbm, ⟨29, _⟩ => ⟨S8192x512, .f32⟩
  | .hbm, ⟨30, _⟩ => ⟨S1x512, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S_, .f32⟩
  | .hbm, ⟨35, _⟩ => ⟨S_, .f32⟩
  | .hbm, ⟨36, _⟩ => ⟨S1x8192, .f32⟩
  | .hbm, ⟨37, _⟩ => ⟨S512x512, .f32⟩
  | .hbm, ⟨38, _⟩ => ⟨S8192x512, .f32⟩
  | .hbm, ⟨39, _⟩ => ⟨S1x512, .f32⟩
  | .hbm, ⟨40, _⟩ => ⟨S8192x512, .f32⟩
  | .hbm, ⟨41, _⟩ => ⟨S8192x512, .f32⟩
  | .hbm, ⟨42, _⟩ => ⟨S_, .f32⟩
  | .hbm, ⟨43, _⟩ => ⟨S8192x512, .f32⟩
  | .hbm, ⟨44, _⟩ => ⟨S8192x512, .f32⟩
  | .hbm, ⟨45, _⟩ => ⟨S1x512, .f32⟩
  | .hbm, ⟨46, _⟩ => ⟨S1x512, .f32⟩
  | .hbm, ⟨47, _⟩ => ⟨S1x512, .f32⟩
  | .hbm, ⟨48, _⟩ => ⟨S512x512, .f32⟩
  | .hbm, ⟨49, _⟩ => ⟨S1x512, .f32⟩
  | .hbm, ⟨50, _⟩ => ⟨S1x512, .f32⟩
  | .hbm, ⟨51, _⟩ => ⟨S1x512, .f32⟩
  | .hbm, ⟨52, _⟩ => ⟨S8192x512, .f32⟩
  | .hbm, ⟨53, _⟩ => ⟨S8192x512, .f32⟩
  | .hbm, ⟨54, _⟩ => ⟨S_, .f32⟩
  | .hbm, ⟨55, _⟩ => ⟨S8192x512, .f32⟩
  | .hbm, ⟨56, _⟩ => ⟨S8192x512, .f32⟩
  | .hbm, ⟨57, _⟩ => ⟨S128x64x512, .f32⟩
  | _, _ => ⟨S128x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_call0_cst : Ref sig .tc := ⟨.hbm, 42, rfl⟩
abbrev main_call0_v0 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_call1_cst : Ref sig .tc := ⟨.hbm, 54, rfl⟩
abbrev main_call1_v0 : Ref sig .tc := ⟨.hbm, 55, rfl⟩
abbrev main_v37 : Ref sig .tc := ⟨.hbm, 56, rfl⟩
abbrev main_v38 : Ref sig .tc := ⟨.hbm, 57, rfl⟩

abbrev nD : Nat := 1
abbrev τ : Topo := Topo.v7x

variable {F : FTy → Type} [FloatOps F]

class Facts₀ : Prop where
  shapeCasts_S128x64x512_S8192x512 : S128x64x512.ShapeCasts S8192x512
  transposes_S512x512_S512x512_1_0 : S512x512.Transposes [1, 0] S512x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  reducesTo_S8192_S_d0 : S8192.ReducesTo [0] S_
  h_S_ : 0 < S_.numel
  bcast_S8192_S1x8192_1 : S8192.BroadcastsInDim S1x8192 (![1] : Fin 1 → Fin S1x8192.rank)
  bcast_S_S8192x512 : S_.BroadcastsInDim S8192x512 (![] : Fin 0 → Fin S8192x512.rank)
  bcast_S_S1x512 : S_.BroadcastsInDim S1x512 (![] : Fin 0 → Fin S1x512.rank)
  shapeCasts_S8192x512_S128x64x512 : S8192x512.ShapeCasts S128x64x512
  dot_S8192x8192_S8192x512_S8192x512_1_0_0_1_n_n_wf : DotDims.WF S8192x8192 S8192x512 S8192x512 [1] [0] [0] [1] [] []
  dot_S8192x512_S512x512_S8192x512_1_0_0_1_n_n_wf : DotDims.WF S8192x512 S512x512 S8192x512 [1] [0] [0] [1] [] []
  dot_S1x8192_S8192x512_S1x512_1_0_0_1_n_n_wf : DotDims.WF S1x8192 S8192x512 S1x512 [1] [0] [0] [1] [] []
  dot_S1x512_S512x512_S1x512_1_0_0_1_n_n_wf : DotDims.WF S1x512 S512x512 S1x512 [1] [0] [0] [1] [] []

variable [Facts₀]

def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S1x8192_S8192x512_S1x512_1_0_0_1_n_n : DotDims S1x8192 S8192x512 S1x512 where
  lhsContracting := [1]
  rhsContracting := [0]
  lhsNonContracting := [0]
  rhsNonContracting := [1]
  lhsBatch := []
  rhsBatch := []
  wf := dot_S1x8192_S8192x512_S1x512_1_0_0_1_n_n_wf
def dot_S1x512_S512x512_S1x512_1_0_0_1_n_n : DotDims S1x512 S512x512 S1x512 where
  lhsContracting := [1]
  rhsContracting := [0]
  lhsNonContracting := [0]
  rhsNonContracting := [1]
  lhsBatch := []
  rhsBatch := []
  wf := dot_S1x512_S512x512_S1x512_1_0_0_1_n_n_wf

class Facts : Prop extends Facts₀ where

variable [Facts]
-- ==== Proof.Blocks.lean ====
/- Window w's block at grid point t, read off the array the region finds. -/
import proofs.«125986_j72834055406175_1_alg».proof.Proof.Gen.KernelIdeal.Launch
import proofs.«125986_j72834055406175_1_alg».proof.Proof.Gen.KernelIdeal.Skeleton
import proofs.«125986_j72834055406175_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

end Cert.KernelIdeal.Hand

end
-- ==== Proof.LibBody.lean ====
/- General lemmas: a filled block reads as its last store; a plain matrix product at an entry. -/
import Idealize.ShloMosaic.Lib.ValueIdx
import Idealize.ShloMosaic.Lib.Pipeline.Value
import Idealize.ShloMosaic.PureOps.Ideal.Laws

namespace Cert.Hand

open Idealize.ShloMosaic ValueIdx

variable {sig : RefSig} {κ : Kind} {sp : Space} {S : Shape} {e : EltTy} {Val : EltTy → Type}

theorem zeros2 : (![0, 0] : Fin 2 → ℕ) = fun _ => 0 :=
  funext fun a => by match a with | ⟨0, _⟩ => rfl | ⟨1, _⟩ => rfl

/-- A buffer whose last store filled it reads as that store's payload, whatever came before. -/
theorem read_writes_whole [∀ e, Nonempty (Val e)] (v : View sig κ sp S e) (f : v.ty.Contents Val) {off : Fin S.rank → ℕ}
    (h : off = fun _ => 0) (inb : ∀ a, off a + S.size a ≤ S.size a) (w : S.Idx → Val e) (L : List (View.Piece Val S e)) :
    v.read Val (v.writes Val f (⟨Rect.unit off S.size inb, w⟩ :: L)) = w :=
  (View.read_writes_eq_canon v f _ fun y => ⟨_, List.Mem.head _, View.mem_set_unit_zero h inb y⟩).trans
    (View.canon_cons_unit_zero h inb w L)

/-- A plain [M,K] by [K,N] product into the zero tile, at (p, q): the sum over the contracted axis. -/
theorem matmul_ix2 {M K N : ℕ} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0]) (h4 : d.rhsNonContracting = [1])
    (h5 : d.lhsBatch = []) (h6 : d.rhsBatch = [])
    (a : FVec Ideal ⟨2, ![M, K]⟩ φ₁) (x : FVec Ideal ⟨2, ![K, N]⟩ φ₂) (p : Fin M) (q : Fin N) :
    matmul d none a x (constant (F := Ideal) ⟨2, ![M, N]⟩ .f32 0x00000000#32) (ix2 p q) = ∑ j : Fin K, a (ix2 p j) * x (ix2 j q) := by
  obtain ⟨lc, rc, ln, rn, lb, rb, wf⟩ := d
  dsimp only at h1 h2 h3 h4 h5 h6
  subst h1 h2 h3 h4 h5 h6
  simp only [matmul]
  rw [Ideal.matmul_constant_zero_apply, ← Equiv.sum_comp (contrEquiv1 _ K rfl rfl).symm]
  refine Finset.sum_congr rfl fun k _ => ?_
  have hk := contrEquiv1_symm_val (DotDims.mk [1] [0] [0] [1] [] [] wf) K rfl rfl k
  have el : (DotDims.mk [1] [0] [0] [1] [] [] wf).lhsIdx (ix2 p q) ((contrEquiv1 _ K rfl rfl).symm k) = ix2 p k := funext fun a => Fin.ext (by
    match a with
    | ⟨0, _⟩ => rfl
    | ⟨1, _⟩ => exact (DotDims.lhsIdx_val_of_single _ rfl _ _).trans hk)
  have er : (DotDims.mk [1] [0] [0] [1] [] [] wf).rhsIdx (ix2 p q) ((contrEquiv1 _ K rfl rfl).symm k) = ix2 k q := funext fun a => Fin.ext (by
    match a with
    | ⟨0, _⟩ => exact (DotDims.rhsIdx_val_of_single _ rfl _ _).trans hk
    | ⟨1, _⟩ => rfl)
  rw [el, er]

end Cert.Hand
-- ==== Proof.PoolRuns.lean ====
/- The pooling body run once per control case, with what its stores leave in the output row. -/
import proofs.«125986_j72834055406175_1_alg».proof.Proof.Blocks
import proofs.«125986_j72834055406175_1_alg».proof.Proof.LibBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 0).val) 0#32)) 0#32) = 1#1

theorem hcond0_0 : ∀ t : Fin cfg0.N, cond0_0 (grid0.coords t) ↔ t.val % 8 = 0 :=
  (by decide +kernel : ∀ t : Fin grid0.N, cond0_0 (grid0.coords t) ↔ t.val % 8 = 0)

abbrev cond0_1 (i : grid0.Coords) : Prop := (Scalar.cmpi .ne (Scalar.extui (Scalar.cmpi .eq (BitVec.ofNat 32 (i 0).val) 7#32)) 0#32) = 1#1

theorem hcond0_1 : ∀ t : Fin cfg0.N, cond0_1 (grid0.coords t) ↔ t.val % 8 = 7 :=
  (by decide +kernel : ∀ t : Fin grid0.N, cond0_1 (grid0.coords t) ↔ t.val % 8 = 7)

open Cert.Hand (zeros2)

section
variable (c : Dev nD) (i : grid0.Coords) (arg1 : Memref sig .tc .vmem S1024x512 .f32) (harg1 : arg1.IsWhole) (arg2 : Memref sig .tc .vmem S1x1024 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x1 .f32) (harg5 : arg5.IsWhole) (arg6 : Memref sig .tc .vmem S1x512 .f32) (harg6 : arg6.IsWhole)
  (x0 : Vec F S1024x512 .f32) (x1 : Vec F S1x1024 .f32) (x2 : Vec F S512x512 .f32) (x3 : Vec F S1x512 .f32) (x4 : Vec F S1x1 .f32)

set_option maxHeartbeats 1000000 in
/-- At the first point the row is reset and then takes the point's masked product. -/
theorem run0_A (hc0 : cond0_0 i) (hc1 : ¬cond0_1 i) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay2 x0 x2 x3 x1 (k0_pay1 (F := F)))) -∗ K ⟨⟩))
      ⊢ wp frame (wpE (defs₀ (F := F)) Variants.none c none) E (cc0__hg_kernel i arg1 harg1 arg2 harg2 arg3 harg3 arg4 harg4 arg5 harg5 arg6 harg6) K := by
  simp only [cc0__hg_kernel_eq_skeleton]; unfold cc0__hg_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := harg1.eq_unread hf1; obtain rfl := harg2.eq_unread hf2; obtain rfl := harg3.eq_unread hf3; obtain rfl := harg4.eq_unread hf4; obtain rfl := harg5.eq_unread hf5
  sl_exec (disch := first | exact hc0 | exact hc1)
  sl_step
  iapply Hk
  isplitl [H1]; · iexists _; isplitr; (· ipureintro; exact hf1); iexact H1
  isplitl [H2]; · iexists _; isplitr; (· ipureintro; exact hf2); iexact H2
  isplitl [H3]; · iexists _; isplitr; (· ipureintro; exact hf3); iexact H3
  isplitl [H4]; · iexists _; isplitr; (· ipureintro; exact hf4); iexact H4
  isplitl [H5]; · iexists _; isplitr; (· ipureintro; exact hf5); iexact H5
  iexists _; isplitr
  swap; · iexact H6
  ipureintro; sl_unfold_words
  rw [Cert.Hand.read_writes_whole _ _ zeros2]
  simp only [View.readAt_eq_ld, harg1.read_unread, harg2.read_unread, harg3.read_unread, harg4.read_unread, harg5.read_unread, harg6.read_unread,
    View.ld_unit_zero (S := S1024x512) zeros2, View.ld_unit_zero (S := S1x1024) zeros2, View.ld_unit_zero (S := S512x512) zeros2,
    View.ld_unit_zero (S := S1x512) zeros2, View.ld_unit_zero (S := S1x1) zeros2, View.readCov_unit_zero (S := S1x512) _ zeros2]

set_option maxHeartbeats 1000000 in
/-- At a middle point the row it holds takes the point's masked product. -/
theorem run0_B (hc0 : ¬cond0_0 i) (hc1 : ¬cond0_1 i) (xo5 : Vec F S1x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay2 x0 x2 x3 x1 xo5)) -∗ K ⟨⟩))
      ⊢ wp frame (wpE (defs₀ (F := F)) Variants.none c none) E (cc0__hg_kernel i arg1 harg1 arg2 harg2 arg3 harg3 arg4 harg4 arg5 harg5 arg6 harg6) K := by
  simp only [cc0__hg_kernel_eq_skeleton]; unfold cc0__hg_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6
  sl_exec (disch := first | exact hc0 | exact hc1)
  sl_step
  iapply Hk
  isplitl [H1]; · iexists _; isplitr; (· ipureintro; exact hf1); iexact H1
  isplitl [H2]; · iexists _; isplitr; (· ipureintro; exact hf2); iexact H2
  isplitl [H3]; · iexists _; isplitr; (· ipureintro; exact hf3); iexact H3
  isplitl [H4]; · iexists _; isplitr; (· ipureintro; exact hf4); iexact H4
  isplitl [H5]; · iexists _; isplitr; (· ipureintro; exact hf5); iexact H5
  iexists _; isplitr
  swap; · iexact H6
  ipureintro; sl_unfold_words
  rw [Cert.Hand.read_writes_whole _ _ zeros2]
  simp only [View.readAt_eq_ld, harg1.read_unread, harg2.read_unread, harg3.read_unread, harg4.read_unread, harg5.read_unread, harg6.read_unread,
    View.ld_unit_zero (S := S1024x512) zeros2, View.ld_unit_zero (S := S1x1024) zeros2, View.ld_unit_zero (S := S512x512) zeros2,
    View.ld_unit_zero (S := S1x512) zeros2, View.ld_unit_zero (S := S1x1) zeros2]

set_option maxHeartbeats 1000000 in
/-- At the last point it does so and is then divided by the mask's total. -/
theorem run0_C (hc0 : ¬cond0_0 i) (hc1 : cond0_1 i) (xo5 : Vec F S1x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay3 (k0_pay2 x0 x2 x3 x1 xo5) x4)) -∗ K ⟨⟩))
      ⊢ wp frame (wpE (defs₀ (F := F)) Variants.none c none) E (cc0__hg_kernel i arg1 harg1 arg2 harg2 arg3 harg3 arg4 harg4 arg5 harg5 arg6 harg6) K := by
  simp only [cc0__hg_kernel_eq_skeleton]; unfold cc0__hg_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6
  sl_exec (disch := first | exact hc0 | exact hc1)
  sl_step
  iapply Hk
  isplitl [H1]; · iexists _; isplitr; (· ipureintro; exact hf1); iexact H1
  isplitl [H2]; · iexists _; isplitr; (· ipureintro; exact hf2); iexact H2
  isplitl [H3]; · iexists _; isplitr; (· ipureintro; exact hf3); iexact H3
  isplitl [H4]; · iexists _; isplitr; (· ipureintro; exact hf4); iexact H4
  isplitl [H5]; · iexists _; isplitr; (· ipureintro; exact hf5); iexact H5
  iexists _; isplitr
  swap; · iexact H6
  ipureintro; sl_unfold_words
  rw [Cert.Hand.read_writes_whole _ _ zeros2]
  simp only [View.readAt_eq_ld, harg1.read_unread, harg2.read_unread, harg3.read_unread, harg4.read_unread, harg5.read_unread, harg6.read_unread,
    View.ld_unit_zero (S := S1024x512) zeros2, View.ld_unit_zero (S := S1x1024) zeros2, View.ld_unit_zero (S := S512x512) zeros2,
    View.ld_unit_zero (S := S1x512) zeros2, View.ld_unit_zero (S := S1x1) zeros2, View.readCov_unit_zero (S := S1x512) _ zeros2]

end

end Cert.KernelIdeal.Hand

end
-- ==== Proof.PoolData.lean ====
/- The pooling call: the running row after each grid point, and the body's triple at any point. -/
import proofs.«125986_j72834055406175_1_alg».proof.Proof.Blocks
import proofs.«125986_j72834055406175_1_alg».proof.Proof.PoolRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def acc0 (c : Dev nD) : (n : ℕ) → n < cfg0.N → Vec F S1x512 .f32
  | 0, hn => k0_pay2 (iblk0 V c 0 ⟨0, hn⟩) (iblk0 V c 2 ⟨0, hn⟩) (iblk0 V c 3 ⟨0, hn⟩) (iblk0 V c 1 ⟨0, hn⟩) (k0_pay1 (F := F))
  | n + 1, hn =>
    if (n + 1) % 8 = 7 then
      k0_pay3 (k0_pay2 (iblk0 V c 0 ⟨n + 1, hn⟩) (iblk0 V c 2 ⟨n + 1, hn⟩) (iblk0 V c 3 ⟨n + 1, hn⟩) (iblk0 V c 1 ⟨n + 1, hn⟩) (acc0 c n (Nat.lt_of_succ_lt hn))) (iblk0 V c 4 ⟨n + 1, hn⟩)
    else
      k0_pay2 (iblk0 V c 0 ⟨n + 1, hn⟩) (iblk0 V c 2 ⟨n + 1, hn⟩) (iblk0 V c 3 ⟨n + 1, hn⟩) (iblk0 V c 1 ⟨n + 1, hn⟩) (acc0 c n (Nat.lt_of_succ_lt hn))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := rfl

theorem after0_5 (c : Dev nD) (t : Fin cfg0.N) : (dat0 V c).after 5 t = acc0 V c t.val t.isLt := rfl

private theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
private theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
private theorem before0_2 (c : Dev nD) (t : Fin cfg0.N) (d) : (dat0 V c).before 2 t d = iblk0 V c 2 t :=
  (dat0 V c).before_in_eq_fetched 2 rfl (fun _ => rfl) (fun _ _ _ => rfl) (fun _ => rfl) t d
private theorem before0_3 (c : Dev nD) (t : Fin cfg0.N) (d) : (dat0 V c).before 3 t d = iblk0 V c 3 t :=
  (dat0 V c).before_in_eq_fetched 3 rfl (fun _ => rfl) (fun _ _ _ => rfl) (fun _ => rfl) t d
private theorem before0_4 (c : Dev nD) (t : Fin cfg0.N) (d) : (dat0 V c).before 4 t d = iblk0 V c 4 t :=
  (dat0 V c).before_in_eq_fetched 4 rfl (fun _ => rfl) (fun _ _ _ => rfl) (fun _ => rfl) t d

private theorem before0_5_kept (c : Dev nD) (t : Fin cfg0.N) (h0 : ¬t.val % 8 = 0) (d) :
    (dat0 V c).before 5 t d = (acc0 V c (t.val - 1) (Nat.lt_of_le_of_lt (Nat.sub_le _ _) t.isLt)) := by
  have hN : t.val < 8 := lt_of_lt_of_eq t.isLt (show cfg0.N = 8 from N_0)
  rw [Dat.before_out_kept _ 5 rfl t (by omega) (Bool.eq_false_iff.mpr fun h => by have := (flush0_5 _).mp h; dsimp only at this; omega)
    (fun _ => rfl) (fun _ _ => rfl)]
  dsimp only [dat0]

private theorem acc0_A (c : Dev nD) (t : Fin cfg0.N) (h0 : t.val % 8 = 0) :
    acc0 V c t.val t.isLt = k0_pay2 (iblk0 V c 0 t) (iblk0 V c 2 t) (iblk0 V c 3 t) (iblk0 V c 1 t) (k0_pay1 (F := F)) := by
  obtain ⟨n, hn⟩ := t
  have hN : n < 8 := lt_of_lt_of_eq hn (show cfg0.N = 8 from N_0)
  cases n with
  | zero => rfl
  | succ n => exfalso; dsimp only at h0; omega

private theorem acc0_B (c : Dev nD) (t : Fin cfg0.N) (h0 : ¬t.val % 8 = 0) (h1 : ¬t.val % 8 = 7) :
    acc0 V c t.val t.isLt = k0_pay2 (iblk0 V c 0 t) (iblk0 V c 2 t) (iblk0 V c 3 t) (iblk0 V c 1 t) (acc0 V c (t.val - 1) (Nat.lt_of_le_of_lt (Nat.sub_le _ _) t.isLt)) := by
  obtain ⟨n, hn⟩ := t
  cases n with
  | zero => exact absurd (Nat.zero_mod _) h0
  | succ n => exact (if_neg h1).trans rfl

private theorem acc0_C (c : Dev nD) (t : Fin cfg0.N) (h1 : t.val % 8 = 7) :
    acc0 V c t.val t.isLt = k0_pay3 (k0_pay2 (iblk0 V c 0 t) (iblk0 V c 2 t) (iblk0 V c 3 t) (iblk0 V c 1 t) (acc0 V c (t.val - 1) (Nat.lt_of_le_of_lt (Nat.sub_le _ _) t.isLt))) (iblk0 V c 4 t) := by
  obtain ⟨n, hn⟩ := t
  cases n with
  | zero => exfalso; dsimp only at h1; omega
  | succ n => exact (if_pos h1).trans rfl

private def bodyPre0 (c : Dev nD) (t : Fin cfg0.N) : sProp 𝕄 :=
  iprop(Pipeline.ΦA spec0 c ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

private def bodyPost0 (c : Dev nD) (t : Fin cfg0.N) : sProp 𝕄 :=
  iprop(Pipeline.ΦA spec0 c ∗ (dat0 V c).owesAt () t.castSucc
    ∗ owns (c : Thread nD τ) (st0_0 t) fullShare (iblk0 V c 0 t)
    ∗ owns (c : Thread nD τ) (st0_1 t) fullShare (iblk0 V c 1 t)
    ∗ owns (c : Thread nD τ) (st0_2 t) fullShare (iblk0 V c 2 t)
    ∗ owns (c : Thread nD τ) (st0_3 t) fullShare (iblk0 V c 3 t)
    ∗ owns (c : Thread nD τ) (st0_4 t) fullShare (iblk0 V c 4 t)
    ∗ owns (c : Thread nD τ) (st0_5 t) fullShare (acc0 V c t.val t.isLt))

set_option maxHeartbeats 1600000 in
/-- At each point the output's buffer holds the running row: reset at the first point, divided at the last. -/
private theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  have hN : t.val < 8 := lt_of_lt_of_eq t.isLt (show cfg0.N = 8 from N_0)
  by_cases h0 : t.val % 8 = 0
  · have h1 : ¬t.val % 8 = 7 := by omega
    rw [acc0_A V c t h0]
    iintro ⟨HΦ, Ho, ⟨%d0, H0⟩, ⟨%d1, H1⟩, ⟨%d2, H2⟩, ⟨%d3, H3⟩, ⟨%d4, H4⟩, ⟨%d5, H5⟩⟩
    iapply (run0_A c (grid0.coords t) _ _ _ _ _ _ _ _ _ _ _ _ (iblk0 V c 0 t) (iblk0 V c 1 t) (iblk0 V c 2 t) (iblk0 V c 3 t) (iblk0 V c 4 t) ((hcond0_0 t).mpr h0) (fun h => h1 ((hcond0_1 t).mp h)) Set.univ _)
    iframe H0 H1 H2 H3 H4
    isplitl [H5]; · iexists _; iexact H5
    iintro ⟨H0, H1, H2, H3, H4, H5⟩
    iframe
  · have hc0 : ¬cond0_0 (grid0.coords t) := fun h => h0 ((hcond0_0 t).mp h)
    simp only [before0_5_kept V c t h0]
    by_cases h1 : t.val % 8 = 7
    · rw [acc0_C V c t h1]
      iintro ⟨HΦ, Ho, ⟨%d0, H0⟩, ⟨%d1, H1⟩, ⟨%d2, H2⟩, ⟨%d3, H3⟩, ⟨%d4, H4⟩, ⟨%d5, H5⟩⟩
      iapply (run0_C c (grid0.coords t) _ _ _ _ _ _ _ _ _ _ _ _ (iblk0 V c 0 t) (iblk0 V c 1 t) (iblk0 V c 2 t) (iblk0 V c 3 t) (iblk0 V c 4 t) hc0 ((hcond0_1 t).mpr h1) (acc0 V c (t.val - 1) (Nat.lt_of_le_of_lt (Nat.sub_le _ _) t.isLt)) Set.univ _)
      iframe H0 H1 H2 H3 H4
      iframe H5
      iintro ⟨H0, H1, H2, H3, H4, H5⟩
      iframe
    · rw [acc0_B V c t h0 h1]
      iintro ⟨HΦ, Ho, ⟨%d0, H0⟩, ⟨%d1, H1⟩, ⟨%d2, H2⟩, ⟨%d3, H3⟩, ⟨%d4, H4⟩, ⟨%d5, H5⟩⟩
      iapply (run0_B c (grid0.coords t) _ _ _ _ _ _ _ _ _ _ _ _ (iblk0 V c 0 t) (iblk0 V c 1 t) (iblk0 V c 2 t) (iblk0 V c 3 t) (iblk0 V c 4 t) hc0 (fun h => h1 ((hcond0_1 t).mp h)) (acc0 V c (t.val - 1) (Nat.lt_of_le_of_lt (Nat.sub_le _ _) t.isLt)) Set.univ _)
      iframe H0 H1 H2 H3 H4
      iframe H5
      iintro ⟨H0, H1, H2, H3, H4, H5⟩
      iframe

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.LayerRuns.lean ====
/- The layer body run once per control case, with what its stores leave in the accumulators and the output tile. -/
import proofs.«125986_j72834055406175_1_alg».proof.Proof.Blocks
import proofs.«125986_j72834055406175_1_alg».proof.Proof.LibBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop := k1_cond2 i = 1#1

theorem hcond1_1 : ∀ t : Fin cfg1.N, cond1_1 (grid1.coords t) ↔ t.val % 8 = 7 :=
  (by decide +kernel : ∀ t : Fin grid1.N, cond1_1 (grid1.coords t) ↔ t.val % 8 = 7)

theorem idleAt1_13_A : ∀ t : Fin cfg1.N, cond1_0 (grid1.coords t) → ¬cond1_1 (grid1.coords t) → cfg1.idle 13 (grid1.coords t) = true := by decide +kernel
theorem noFlush1_13_A : ∀ t : Fin cfg1.N, cond1_0 (grid1.coords t) → ¬cond1_1 (grid1.coords t) → (cfg1.win 13).flush t = false := by decide +kernel
theorem idleAt1_13_B : ∀ t : Fin cfg1.N, ¬cond1_0 (grid1.coords t) → ¬cond1_1 (grid1.coords t) → cfg1.idle 13 (grid1.coords t) = true := by decide +kernel
theorem noFlush1_13_B : ∀ t : Fin cfg1.N, ¬cond1_0 (grid1.coords t) → ¬cond1_1 (grid1.coords t) → (cfg1.win 13).flush t = false := by decide +kernel
theorem liveAt1_13_C : ∀ t : Fin cfg1.N, ¬cond1_0 (grid1.coords t) → cond1_1 (grid1.coords t) → cfg1.idle 13 (grid1.coords t) = false := by decide +kernel

open Cert.Hand (zeros2)

section
variable (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S512x512 .f32) (harg13 : arg13.IsWhole) (arg14 : Memref sig .tc .vmem S1x512 .f32) (harg14 : arg14.IsWhole) (arg15 : Memref sig .tc .vmem S1024x512 .f32) (harg15 : arg15.IsWhole) (arg16 : Memref sig .tc .vmem S1024x512 .f32) (harg16 : arg16.IsWhole) (arg17 : Memref sig .tc .vmem S1024x512 .f32) (harg17 : arg17.IsWhole)
  (x0 x1 : Vec F S1024x1024 .f32) (x2 : Vec F S1024x512 .f32)

set_option maxHeartbeats 1000000 in
/-- Where k = 0 both accumulators are reset and then take the point's products. -/
theorem run1_A (hc0 : cond1_0 i) (hc1 : ¬cond1_1 i) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg16 fullShare d) ∗ (∃ d, owns (c : Thread nD τ) arg17 fullShare d)
        ∗ (iprop(owns (c : Thread nD τ) arg2 fullShare x0 ∗ owns (c : Thread nD τ) arg3 fullShare x1 ∗ owns (c : Thread nD τ) arg4 fullShare x2 ∗ owns (c : Thread nD τ) arg16 fullShare (k1_pay4 x0 x2 (k1_pay1 (F := F))) ∗ owns (c : Thread nD τ) arg17 fullShare (k1_pay5 x1 x2 (k1_pay2 (F := F)))) -∗ K ⟨⟩))
      ⊢ wp frame (wpE (defs₀ (F := F)) Variants.none c none) E (cc1__main_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc1__main_kernel_eq_skeleton]; unfold cc1__main_kernel_skel
  unfold owns
  iintro ⟨⟨%f0, %hf0, H0⟩, ⟨%f1, %hf1, H1⟩, ⟨%f2, %hf2, H2⟩, ⟨%ds0, %fs0, -, HS0⟩, ⟨%ds1, %fs1, -, HS1⟩, Hk⟩
  obtain rfl := harg2.eq_unread hf0; obtain rfl := harg3.eq_unread hf1; obtain rfl := harg4.eq_unread hf2
  sl_exec (disch := first | exact hc0 | exact hc1)
  sl_step
  iapply Hk
  isplitl [H0]; · iexists _; isplitr; (· ipureintro; exact hf0); iexact H0
  isplitl [H1]; · iexists _; isplitr; (· ipureintro; exact hf1); iexact H1
  isplitl [H2]; · iexists _; isplitr; (· ipureintro; exact hf2); iexact H2
  isplitl [HS0]
  · iexists _; isplitr; swap; · iexact HS0
    ipureintro; sl_unfold_words; rw [Cert.Hand.read_writes_whole _ _ zeros2]
    simp only [View.readAt_eq_ld, harg2.read_unread, harg3.read_unread, harg4.read_unread, harg16.read_unread, harg17.read_unread,
      View.ld_unit_zero (S := S1024x1024) zeros2, View.ld_unit_zero (S := S1024x512) zeros2, View.readCov_unit_zero (S := S1024x512) _ zeros2]
  iexists _; isplitr; swap; · iexact HS1
  ipureintro; sl_unfold_words; rw [Cert.Hand.read_writes_whole _ _ zeros2]
  simp only [View.readAt_eq_ld, harg2.read_unread, harg3.read_unread, harg4.read_unread, harg16.read_unread, harg17.read_unread,
      View.ld_unit_zero (S := S1024x1024) zeros2, View.ld_unit_zero (S := S1024x512) zeros2, View.readCov_unit_zero (S := S1024x512) _ zeros2]

set_option maxHeartbeats 1000000 in
/-- Where 0 < k < 7 each accumulator takes the product of this point's tiles. -/
theorem run1_B (hc0 : ¬cond1_0 i) (hc1 : ¬cond1_1 i) (xs0 xs1 : Vec F S1024x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg16 fullShare xs0 ∗ owns (c : Thread nD τ) arg17 fullShare xs1
        ∗ (iprop(owns (c : Thread nD τ) arg2 fullShare x0 ∗ owns (c : Thread nD τ) arg3 fullShare x1 ∗ owns (c : Thread nD τ) arg4 fullShare x2 ∗ owns (c : Thread nD τ) arg16 fullShare (k1_pay4 x0 x2 xs0) ∗ owns (c : Thread nD τ) arg17 fullShare (k1_pay5 x1 x2 xs1)) -∗ K ⟨⟩))
      ⊢ wp frame (wpE (defs₀ (F := F)) Variants.none c none) E (cc1__main_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc1__main_kernel_eq_skeleton]; unfold cc1__main_kernel_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg16.eq_unread hfs0; obtain rfl := harg17.eq_unread hfs1
  sl_exec (disch := first | exact hc0 | exact hc1)
  sl_step
  iapply Hk
  isplitl [H0]; · iexists _; isplitr; (· ipureintro; exact hf0); iexact H0
  isplitl [H1]; · iexists _; isplitr; (· ipureintro; exact hf1); iexact H1
  isplitl [H2]; · iexists _; isplitr; (· ipureintro; exact hf2); iexact H2
  isplitl [HS0]
  · iexists _; isplitr; swap; · iexact HS0
    ipureintro; sl_unfold_words; rw [Cert.Hand.read_writes_whole _ _ zeros2]
    simp only [View.readAt_eq_ld, harg2.read_unread, harg3.read_unread, harg4.read_unread, harg16.read_unread, harg17.read_unread,
      View.ld_unit_zero (S := S1024x1024) zeros2, View.ld_unit_zero (S := S1024x512) zeros2, View.readCov_unit_zero (S := S1024x512) _ zeros2]
  iexists _; isplitr; swap; · iexact HS1
  ipureintro; sl_unfold_words; rw [Cert.Hand.read_writes_whole _ _ zeros2]
  simp only [View.readAt_eq_ld, harg2.read_unread, harg3.read_unread, harg4.read_unread, harg16.read_unread, harg17.read_unread,
      View.ld_unit_zero (S := S1024x1024) zeros2, View.ld_unit_zero (S := S1024x512) zeros2, View.readCov_unit_zero (S := S1024x512) _ zeros2]

set_option maxHeartbeats 2000000 in
/-- Where k = 7 they do so and the epilogue stores the output tile computed from them. -/
theorem run1_C (hc0 : ¬cond1_0 i) (hc1 : cond1_1 i) (x3 : Vec F S1024x512 .f32) (x4 : Vec F S512x512 .f32) (x5 : Vec F S1x512 .f32) (x6 : Vec F S512x512 .f32) (x7 : Vec F S1x512 .f32) (x8 : Vec F S512x512 .f32) (x9 : Vec F S1x512 .f32) (x10 : Vec F S1x512 .f32) (x11 : Vec F S512x512 .f32) (x12 : Vec F S1x512 .f32) (xs0 xs1 : Vec F S1024x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ owns (c : Thread nD τ) arg16 fullShare xs0 ∗ owns (c : Thread nD τ) arg17 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare (k1_pay6 (k1_pay7 x3 x4 x5 (k1_pay4 x0 x2 xs0) x6 x7 (k1_pay5 x1 x2 xs1) x8 x9) (k1_pay8 x10 x11) x12) ∗ owns (c : Thread nD τ) arg16 fullShare (k1_pay4 x0 x2 xs0) ∗ owns (c : Thread nD τ) arg17 fullShare (k1_pay5 x1 x2 xs1)) -∗ K ⟨⟩))
      ⊢ wp frame (wpE (defs₀ (F := F)) Variants.none c none) E (cc1__main_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc1__main_kernel_eq_skeleton]; unfold cc1__main_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
  obtain rfl := harg16.eq_unread hfs0; obtain rfl := harg17.eq_unread hfs1
  sl_exec (disch := first | exact hc0 | exact hc1)
  sl_step
  iapply Hk
  isplitl [H0]; · iexists _; isplitr; (· ipureintro; exact hf0); iexact H0
  isplitl [H1]; · iexists _; isplitr; (· ipureintro; exact hf1); iexact H1
  isplitl [H2]; · iexists _; isplitr; (· ipureintro; exact hf2); iexact H2
  isplitl [H3]; · iexists _; isplitr; (· ipureintro; exact hf3); iexact H3
  isplitl [H4]; · iexists _; isplitr; (· ipureintro; exact hf4); iexact H4
  isplitl [H5]; · iexists _; isplitr; (· ipureintro; exact hf5); iexact H5
  isplitl [H6]; · iexists _; isplitr; (· ipureintro; exact hf6); iexact H6
  isplitl [H7]; · iexists _; isplitr; (· ipureintro; exact hf7); iexact H7
  isplitl [H8]; · iexists _; isplitr; (· ipureintro; exact hf8); iexact H8
  isplitl [H9]; · iexists _; isplitr; (· ipureintro; exact hf9); iexact H9
  isplitl [H10]; · iexists _; isplitr; (· ipureintro; exact hf10); iexact H10
  isplitl [H11]; · iexists _; isplitr; (· ipureintro; exact hf11); iexact H11
  isplitl [H12]; · iexists _; isplitr; (· ipureintro; exact hf12); iexact H12
  isplitl [H13]
  · iexists _; isplitr; swap; · iexact H13
    ipureintro; sl_unfold_words; rw [Cert.Hand.read_writes_whole _ _ zeros2]
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg16.read_unread, harg17.read_unread,
      View.ld_unit_zero (S := S1024x1024) zeros2, View.ld_unit_zero (S := S1024x512) zeros2, View.ld_unit_zero (S := S512x512) zeros2, View.ld_unit_zero (S := S1x512) zeros2,
      View.readCov_unit_zero (S := S1024x512) _ zeros2]
  isplitl [HS0]
  · iexists _; isplitr; swap; · iexact HS0
    ipureintro; sl_unfold_words; rw [Cert.Hand.read_writes_whole _ _ zeros2]
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg16.read_unread, harg17.read_unread,
      View.ld_unit_zero (S := S1024x1024) zeros2, View.ld_unit_zero (S := S1024x512) zeros2, View.ld_unit_zero (S := S512x512) zeros2, View.ld_unit_zero (S := S1x512) zeros2,
      View.readCov_unit_zero (S := S1024x512) _ zeros2]
  iexists _; isplitr; swap; · iexact HS1
  ipureintro; sl_unfold_words; rw [Cert.Hand.read_writes_whole _ _ zeros2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg16.read_unread, harg17.read_unread,
      View.ld_unit_zero (S := S1024x1024) zeros2, View.ld_unit_zero (S := S1024x512) zeros2, View.ld_unit_zero (S := S512x512) zeros2, View.ld_unit_zero (S := S1x512) zeros2,
      View.readCov_unit_zero (S := S1024x512) _ zeros2]

end

end Cert.KernelIdeal.Hand

end
-- ==== Proof.LayerData.lean ====
/- The layer call: the two neighbour sums after each grid point, the region's invariant, and the body's triple at any point. -/
import proofs.«125986_j72834055406175_1_alg».proof.Proof.Blocks
import proofs.«125986_j72834055406175_1_alg».proof.Proof.LayerRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def accs1 (c : Dev nD) : (n : ℕ) → n < cfg1.N → Vec F S1024x512 .f32 × Vec F S1024x512 .f32
  | 0, hn => (k1_pay4 (iblk1 V c 0 ⟨0, hn⟩) (iblk1 V c 2 ⟨0, hn⟩) (k1_pay1 (F := F)), k1_pay5 (iblk1 V c 1 ⟨0, hn⟩) (iblk1 V c 2 ⟨0, hn⟩) (k1_pay2 (F := F)))
  | n + 1, hn =>
    if (n + 1) % 8 = 0 then
      (k1_pay4 (iblk1 V c 0 ⟨n + 1, hn⟩) (iblk1 V c 2 ⟨n + 1, hn⟩) (k1_pay1 (F := F)), k1_pay5 (iblk1 V c 1 ⟨n + 1, hn⟩) (iblk1 V c 2 ⟨n + 1, hn⟩) (k1_pay2 (F := F)))
    else
      (k1_pay4 (iblk1 V c 0 ⟨n + 1, hn⟩) (iblk1 V c 2 ⟨n + 1, hn⟩) (accs1 c n (Nat.lt_of_succ_lt hn)).1, k1_pay5 (iblk1 V c 1 ⟨n + 1, hn⟩) (iblk1 V c 2 ⟨n + 1, hn⟩) (accs1 c n (Nat.lt_of_succ_lt hn)).2)

def out1 (c : Dev nD) (t : Fin cfg1.N) : Vec F S1024x512 .f32 :=
  k1_pay6 (k1_pay7 (iblk1 V c 3 t) (iblk1 V c 4 t) (iblk1 V c 5 t) (accs1 V c t.val t.isLt).1 (iblk1 V c 6 t) (iblk1 V c 7 t) (accs1 V c t.val t.isLt).2 (iblk1 V c 8 t) (iblk1 V c 9 t))
    (k1_pay8 (iblk1 V c 10 t) (iblk1 V c 11 t)) (iblk1 V c 12 t)

abbrev scM1_0 : Memref sig .tc .vmem S1024x512 .f32 := Memref.whole cc1_scratch0
abbrev scM1_1 : Memref sig .tc .vmem S1024x512 .f32 := Memref.whole cc1_scratch1

def restS1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f))

def PhiS1 (c : Dev nD) : (n : ℕ) → n ≤ cfg1.N → sProp 𝕄
  | 0, _ => Pipeline.ΦA spec1 c
  | n + 1, hn => iprop(owns (c : Thread nD τ) scM1_0 fullShare (accs1 V c n hn).1 ∗ owns (c : Thread nD τ) scM1_1 fullShare (accs1 V c n hn).2 ∗ restS1 (F := F) c ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => out1 V c t
  Φ t := PhiS1 V c t.val (Nat.le_of_lt_succ t.isLt)
  q w := match w with
    | ⟨2, _⟩ => fullShare.left
    | ⟨3, _⟩ => fullShare.right
    | _ => fullShare
  owed _ := 0

theorem A_eq1 (c : Dev nD) (w : Fin cfg1.W) : (dat1 V c).A w = V c (Pipeline.arrRef spec1 w) := rfl

theorem after1_13 (c : Dev nD) (t : Fin cfg1.N) : (dat1 V c).after 13 t = out1 V c t := rfl

theorem accs1_A (c : Dev nD) (t : Fin cfg1.N) (h0 : t.val % 8 = 0) :
    accs1 V c t.val t.isLt = (k1_pay4 (iblk1 V c 0 t) (iblk1 V c 2 t) (k1_pay1 (F := F)), k1_pay5 (iblk1 V c 1 t) (iblk1 V c 2 t) (k1_pay2 (F := F))) := by
  obtain ⟨n, hn⟩ := t
  cases n with
  | zero => rfl
  | succ n => exact (if_pos h0).trans rfl

theorem accs1_B (c : Dev nD) (t : Fin cfg1.N) (h0 : ¬t.val % 8 = 0) :
    accs1 V c t.val t.isLt = (k1_pay4 (iblk1 V c 0 t) (iblk1 V c 2 t) (accs1 V c (t.val - 1) (Nat.lt_of_le_of_lt (Nat.sub_le _ _) t.isLt)).1, k1_pay5 (iblk1 V c 1 t) (iblk1 V c 2 t) (accs1 V c (t.val - 1) (Nat.lt_of_le_of_lt (Nat.sub_le _ _) t.isLt)).2) := by
  obtain ⟨n, hn⟩ := t
  cases n with
  | zero => exact absurd (Nat.zero_mod _) h0
  | succ n => exact (if_neg h0).trans rfl

theorem PhiS1_pos (c : Dev nD) (n : ℕ) (h : n ≤ cfg1.N) (hz : n ≠ 0) :
    PhiS1 V c n h = iprop(owns (c : Thread nD τ) scM1_0 fullShare (accs1 V c (n - 1) (by omega)).1 ∗ owns (c : Thread nD τ) scM1_1 fullShare (accs1 V c (n - 1) (by omega)).2 ∗ restS1 (F := F) c ∗ (∃ r, prngReg c r)) := by
  cases n with
  | zero => exact absurd rfl hz
  | succ n => rfl

/-- What the region starts from: the two accumulators at any contents, beside the rest. -/
theorem PhiA1_iff (c : Dev nD) : (Pipeline.ΦA spec1 c : sProp 𝕄) ⊣⊢ iprop((∃ d, owns (c : Thread nD τ) scM1_0 fullShare d) ∗ (∃ d, owns (c : Thread nD τ) scM1_1 fullShare d) ∗ restS1 (F := F) c ∗ (∃ r, prngReg c r)) := by
  unfold Pipeline.ΦA restS1; rw [scopedRest1_eq]; simp only [scM1_0, scM1_1, owns_whole]
  constructor
  · iintro ⟨⟨A1, A2, A3, A4, A5, A6, A7, A8, HS0, HS1⟩, Hg⟩; iframe
  · iintro ⟨HS0, HS1, ⟨A1, A2, A3, A4, A5, A6, A7, A8⟩, Hg⟩; iframe

theorem PhiS1_weak (c : Dev nD) (n : ℕ) (h : n ≤ cfg1.N) : PhiS1 V c n h ⊢ iprop((∃ d, owns (c : Thread nD τ) scM1_0 fullShare d) ∗ (∃ d, owns (c : Thread nD τ) scM1_1 fullShare d) ∗ restS1 (F := F) c ∗ (∃ r, prngReg c r)) := by
  cases n with
  | zero => exact (PhiA1_iff c).1
  | succ n =>
    show iprop(_ ∗ _ ∗ _ ∗ _) ⊢ _
    iintro ⟨HS0, HS1, HR, Hg⟩
    iframe HR Hg
    isplitl [HS0] <;> iexists _ <;> iassumption

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d
theorem before1_4 (c : Dev nD) (t : Fin cfg1.N) (d) : (dat1 V c).before 4 t d = iblk1 V c 4 t :=
  (dat1 V c).before_in_eq_fetched 4 rfl (fun _ => rfl) (fun _ _ _ => rfl) (fun _ => rfl) t d
theorem before1_5 (c : Dev nD) (t : Fin cfg1.N) (d) : (dat1 V c).before 5 t d = iblk1 V c 5 t :=
  (dat1 V c).before_in_eq_fetched 5 rfl (fun _ => rfl) (fun _ _ _ => rfl) (fun _ => rfl) t d
theorem before1_6 (c : Dev nD) (t : Fin cfg1.N) (d) : (dat1 V c).before 6 t d = iblk1 V c 6 t :=
  (dat1 V c).before_in_eq_fetched 6 rfl (fun _ => rfl) (fun _ _ _ => rfl) (fun _ => rfl) t d
theorem before1_7 (c : Dev nD) (t : Fin cfg1.N) (d) : (dat1 V c).before 7 t d = iblk1 V c 7 t :=
  (dat1 V c).before_in_eq_fetched 7 rfl (fun _ => rfl) (fun _ _ _ => rfl) (fun _ => rfl) t d
theorem before1_8 (c : Dev nD) (t : Fin cfg1.N) (d) : (dat1 V c).before 8 t d = iblk1 V c 8 t :=
  (dat1 V c).before_in_eq_fetched 8 rfl (fun _ => rfl) (fun _ _ _ => rfl) (fun _ => rfl) t d
theorem before1_9 (c : Dev nD) (t : Fin cfg1.N) (d) : (dat1 V c).before 9 t d = iblk1 V c 9 t :=
  (dat1 V c).before_in_eq_fetched 9 rfl (fun _ => rfl) (fun _ _ _ => rfl) (fun _ => rfl) t d
theorem before1_10 (c : Dev nD) (t : Fin cfg1.N) (d) : (dat1 V c).before 10 t d = iblk1 V c 10 t :=
  (dat1 V c).before_in_eq_fetched 10 rfl (fun _ => rfl) (fun _ _ _ => rfl) (fun _ => rfl) t d
theorem before1_11 (c : Dev nD) (t : Fin cfg1.N) (d) : (dat1 V c).before 11 t d = iblk1 V c 11 t :=
  (dat1 V c).before_in_eq_fetched 11 rfl (fun _ => rfl) (fun _ _ _ => rfl) (fun _ => rfl) t d
theorem before1_12 (c : Dev nD) (t : Fin cfg1.N) (d) : (dat1 V c).before 12 t d = iblk1 V c 12 t :=
  (dat1 V c).before_in_eq_fetched 12 rfl (fun _ => rfl) (fun _ _ _ => rfl) (fun _ => rfl) t d

def bodyPre1 (c : Dev nD) (t : Fin cfg1.N) : sProp 𝕄 :=
  iprop(PhiS1 V c t.val (Nat.le_of_lt t.isLt) ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d)))

def bodyPost1 (c : Dev nD) (t : Fin cfg1.N) : sProp 𝕄 :=
  iprop(iprop(owns (c : Thread nD τ) scM1_0 fullShare (accs1 V c t.val t.isLt).1 ∗ owns (c : Thread nD τ) scM1_1 fullShare (accs1 V c t.val t.isLt).2 ∗ restS1 (F := F) c ∗ (∃ r, prngReg c r)) ∗ (dat1 V c).owesAt () t.castSucc
    ∗ owns (c : Thread nD τ) (st1_0 t) fullShare (iblk1 V c 0 t)
    ∗ owns (c : Thread nD τ) (st1_1 t) fullShare (iblk1 V c 1 t)
    ∗ owns (c : Thread nD τ) (st1_2 t) fullShare (iblk1 V c 2 t)
    ∗ owns (c : Thread nD τ) (st1_3 t) fullShare (iblk1 V c 3 t)
    ∗ owns (c : Thread nD τ) (st1_4 t) fullShare (iblk1 V c 4 t)
    ∗ owns (c : Thread nD τ) (st1_5 t) fullShare (iblk1 V c 5 t)
    ∗ owns (c : Thread nD τ) (st1_6 t) fullShare (iblk1 V c 6 t)
    ∗ owns (c : Thread nD τ) (st1_7 t) fullShare (iblk1 V c 7 t)
    ∗ owns (c : Thread nD τ) (st1_8 t) fullShare (iblk1 V c 8 t)
    ∗ owns (c : Thread nD τ) (st1_9 t) fullShare (iblk1 V c 9 t)
    ∗ owns (c : Thread nD τ) (st1_10 t) fullShare (iblk1 V c 10 t)
    ∗ owns (c : Thread nD τ) (st1_11 t) fullShare (iblk1 V c 11 t)
    ∗ owns (c : Thread nD τ) (st1_12 t) fullShare (iblk1 V c 12 t)
    ∗ (dat1 V c).leavesExact 13 t)

set_option maxHeartbeats 4800000 in
/-- The invariant lends the body the two accumulators and takes them back at this point's sums; the output tile is written only where k = 7. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12]
  have hN : t.val < 64 := lt_of_lt_of_eq t.isLt (show cfg1.N = 64 from N_1)
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 13 t (idleAt1_13_A t hc0 hc1) (noFlush1_13_A t hc0 hc1)]
    simp only [accs1_A V c t h0]
    refine (sep_mono (PhiS1_weak V c t.val _) .rfl).trans ?_
    iintro ⟨⟨HS0, HS1, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, H13⟩
    iapply (run1_A c (grid1.coords t) _ _ _ _ _ _ _ _ _ _ _ _ _ _ _ _ _ _ _ _ _ _ _ _ _ _ _ _ _ _ _ _ (iblk1 V c 0 t) (iblk1 V c 1 t) (iblk1 V c 2 t) hc0 hc1 Set.univ _)
    iframe H0 H1 H2 HS0 HS1
    iintro ⟨H0, H1, H2, HS0, HS1⟩
    iframe
  · have hc0 : ¬cond1_0 (grid1.coords t) := fun h => h0 ((hcond1_0 t).mp h)
    rw [PhiS1_pos V c _ _ fun e => h0 (by rw [e])]
    by_cases h1 : t.val % 8 = 7
    · have hc1 : cond1_1 (grid1.coords t) := (hcond1_1 t).mpr h1
      rw [show (dat1 V c).leavesExact 13 t = owns (c : Thread nD τ) (st1_13 t) fullShare (out1 V c t) from by
        unfold Dat.leavesExact; rw [liveAt1_13_C t hc0 hc1]; rfl]
      unfold out1
      simp only [accs1_B V c t h0]
      iintro ⟨⟨HS0, HS1, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (run1_C c (grid1.coords t) _ _ _ _ _ _ _ _ _ _ _ _ _ _ _ _ _ _ _ _ _ _ _ _ _ _ _ _ _ _ _ _ (iblk1 V c 0 t) (iblk1 V c 1 t) (iblk1 V c 2 t) hc0 hc1 (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (accs1 V c (t.val - 1) (Nat.lt_of_le_of_lt (Nat.sub_le _ _) t.isLt)).1 (accs1 V c (t.val - 1) (Nat.lt_of_le_of_lt (Nat.sub_le _ _) t.isLt)).2 Set.univ _)
      iframe H0 H1 H2 H3 H4 H5 H6 H7 H8 H9 H10 H11 H12 HS0 HS1
      isplitl [H13]; · iexists _; iexact H13
      iintro ⟨H0, H1, H2, H3, H4, H5, H6, H7, H8, H9, H10, H11, H12, H13, HS0, HS1⟩
      iframe
    · have hc1 : ¬cond1_1 (grid1.coords t) := fun h => h1 ((hcond1_1 t).mp h)
      rw [Dat.leavesExact_idle (dat1 V c) 13 t (idleAt1_13_B t hc0 hc1) (noFlush1_13_B t hc0 hc1)]
      simp only [accs1_B V c t h0]
      iintro ⟨⟨HS0, HS1, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, H13⟩
      iapply (run1_B c (grid1.coords t) _ _ _ _ _ _ _ _ _ _ _ _ _ _ _ _ _ _ _ _ _ _ _ _ _ _ _ _ _ _ _ _ (iblk1 V c 0 t) (iblk1 V c 1 t) (iblk1 V c 2 t) hc0 hc1 (accs1 V c (t.val - 1) (Nat.lt_of_le_of_lt (Nat.sub_le _ _) t.isLt)).1 (accs1 V c (t.val - 1) (Nat.lt_of_le_of_lt (Nat.sub_le _ _) t.isLt)).2 Set.univ _)
      iframe H0 H1 H2 HS0 HS1
      iintro ⟨H0, H1, H2, HS0, HS1⟩
      iframe

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := .rfl

theorem hout1 (c : Dev nD) : (dat1 V c).Φ (Fin.last cfg1.N) ⊢ Pipeline.ΦA spec1 c :=
  (PhiS1_weak V c (Fin.last cfg1.N).val (Nat.le_of_lt_succ (Fin.last cfg1.N).isLt)).trans (PhiA1_iff c).2

end Cert.KernelIdeal.Hand

end
-- ==== Proof.ProgramRun.lean ====
/- The program as host stretches and the two regions, each entered from what the items before it left. -/
import proofs.«125986_j72834055406175_1_alg».proof.Proof.RunCond
import proofs.«125986_j72834055406175_1_alg».proof.Proof.PoolData
import proofs.«125986_j72834055406175_1_alg».proof.Proof.LayerData
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev E1 : (c : Dev nD) → (b : Ref sig .tc) → Buf (Elt F) ((c : Thread nD τ).loc b) := fun c b => V1 m c b

def hgArr (c : Dev nD) : Buf (Elt F) ((c : Thread nD τ).loc main_v6) := (dat0 (E1 m) c).arrAt 5 cfg0.N

def outs1 : Outs (F := F) := fun _ r c => if h : r = main_v6 then h ▸ hgArr m c else m ((c : Thread nD τ).loc r)

abbrev E3 : (c : Dev nD) → (b : Ref sig .tc) → Buf (Elt F) ((c : Thread nD τ).loc b) := fun c b => V3 m (outs1 m) c b

def outArr (c : Dev nD) : Buf (Elt F) ((c : Thread nD τ).loc main_v15) := (dat1 (E3 m) c).arrAt 13 cfg1.N

def outs : Outs (F := F) := fun J r c => if h : r = main_v15 then h ▸ outArr m c else outs1 m J r c

theorem outs_v6 (J : ℕ) (c : Dev nD) : outs m J main_v6 c = hgArr m c := by
  have h : (main_v6 : Ref sig .tc) ≠ main_v15 := by decide
  unfold outs outs1
  rw [dif_neg h, dif_pos rfl]
theorem outs_v15 (J : ℕ) (c : Dev nD) : outs m J main_v15 c = outArr m c := by
  unfold outs
  rw [dif_pos rfl]

theorem V3_outs (c : Dev nD) : V3 m (outs m) c = V3 m (outs1 m) c := by
  have h1 : outs1 m 2 main_v6 c = hgArr m c := by unfold outs1; rw [dif_pos rfl]
  unfold V3 V2
  rw [outs_v6, h1]

def pdats : (p : Fin 2) → (c : Dev nD) → Dat τ (Elt F) Unit ℕ (UR sig nD τ) ℕ (cfgs p) c
  | ⟨0, _⟩ => fun c => dat0 (E1 m) c
  | ⟨1, _⟩ => fun c => dat1 (E3 m) c

abbrev Lv : GSem nD τ sig → Finset Unit := fun _ => ∅
abbrev lvl : GSem nD τ sig → Unit → ℕ := fun _ _ => 0

abbrev Rst (c : Dev nD) : sProp 𝕄 := iprop((∃ r, prngReg c r) ∗ ∃ W, owes (c : Thread nD τ) (0 : CellTallies nD τ sig Unit) W)

theorem hF0 (c : Dev nD) (w : Fin cfg0.W) : (pdats m 0 c).arrAt w cfg0.N = V2 m (outs m) c (Pipeline.arrRef spec0 w) := by
  have hin : ∀ w : Fin cfg0.W, (cfg0.win w).isOut = false → Pipeline.arrRef spec0 w ∉ ([main_v6] : List (Ref sig .tc)) →
      (pdats m 0 c).arrAt w cfg0.N = V2 m (outs m) c (Pipeline.arrRef spec0 w) := fun w hw hne =>
    (((pdats m 0 c).arrAt_in w hw _).trans (A_eq0 (E1 m) c w)).trans (V2_of m (outs m) c _ hne).symm
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ =>
    show hgArr m c = V2 m (outs m) c main_v6
    rw [← outs_v6 m 2 c]
    simp only [V2, Function.update_self]

theorem hrest0 (c : Dev nD) : ∀ b, b ∉ Finset.univ.image (Pipeline.arrRef spec0) → V2 m (outs m) c b = V1 m c b :=
  fun b hb => V2_of m (outs m) c b fun h => hb (by
    rw [List.mem_singleton.mp h]; exact Finset.mem_image.mpr ⟨5, Finset.mem_univ _, rfl⟩)

set_option backward.isDefEq.respectTransparency.types false in

def reg0 : RegionSeg (pcfgs (F := F)) adm (pdats m) () defs₀ Variants.none Lv lvl 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ Lv lvl 0 fun _ _ => rfl
  pre c := iprop(StableHlo.held (c : Thread nD τ) (Pipeline.ucRefs τ sig) (V1 m c) ∗ Rst c)
  post c := iprop(StableHlo.held (c : Thread nD τ) (Pipeline.ucRefs τ sig) (V2 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    icases HO with ⟨%W, HO⟩; iexists W; isplitr; · ipureintro; exact fun _ _ => Or.inl trivial
    iexact HO
  hin c := by
    rw [show (pdats m 0 c).Φ 0 = Pipeline.ΦA spec0 c from rfl]; unfold Pipeline.ΦA
    iintro ⟨Hp, -, Hr⟩; iframe
  hout c := by
    rw [Pipeline.ownSems0_none, show (pdats m 0 c).Φ (Fin.last _) = Pipeline.ΦA spec0 c from rfl]; unfold Pipeline.ΦA
    iintro ⟨Hr, Hp⟩
    iframe Hp Hr
    iempintro
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; iframe
    isplitl [HY]; · iexact HY
    unfold Pipeline.Dat.owesAt Pipeline.owesWithin
    icases HO with ⟨%W, -, HO⟩; iexists W; iexact HO

abbrev arrList1 : List (Ref sig .tc) := [main_arg2, main_arg3, main_v0, main_v7, main_v11, main_v8, main_v12, main_v9, main_v13, main_v6, main_v10, main_v14, main_v15]

theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg2) ↦{fullShare} V main_arg2) ∗ (((c : Thread nD τ).loc main_arg3) ↦{fullShare} V main_arg3) ∗ (((c : Thread nD τ).loc main_v0) ↦{fullShare} V main_v0) ∗ (((c : Thread nD τ).loc main_v7) ↦{fullShare} V main_v7) ∗ (((c : Thread nD τ).loc main_v11) ↦{fullShare} V main_v11) ∗ (((c : Thread nD τ).loc main_v8) ↦{fullShare} V main_v8) ∗ (((c : Thread nD τ).loc main_v12) ↦{fullShare} V main_v12) ∗ (((c : Thread nD τ).loc main_v9) ↦{fullShare} V main_v9) ∗ (((c : Thread nD τ).loc main_v13) ↦{fullShare} V main_v13) ∗ (((c : Thread nD τ).loc main_v6) ↦{fullShare} V main_v6) ∗ (((c : Thread nD τ).loc main_v10) ↦{fullShare} V main_v10) ∗ (((c : Thread nD τ).loc main_v14) ↦{fullShare} V main_v14) ∗ (((c : Thread nD τ).loc main_v15) ↦{fullShare} V main_v15)) := by
  unfold Pipeline.arrBufs
  exact bigSep_eq_bigSepL_of_eq arrList1 (by decide) (by decide) _

theorem arrays1_eq (V : (c : Dev nD) → (b : Ref sig .tc) → Buf (Elt F) ((c : Thread nD τ).loc b)) (c : Dev nD)
    (Fw : (w : Fin cfg1.W) → Buf (Elt F) ((cfg1.win w).arr.view.loc (c : Thread nD τ))) :
    (dat1 V c).arrays Fw
      = iprop((((c : Thread nD τ).loc main_arg2) ↦{fullShare} Fw 0) ∗ (((c : Thread nD τ).loc main_arg3) ↦{fullShare} Fw 1) ∗ (((c : Thread nD τ).loc main_v0) ↦{fullShare.left} Fw 2) ∗ (((c : Thread nD τ).loc main_v0) ↦{fullShare.right} Fw 3) ∗ (((c : Thread nD τ).loc main_v7) ↦{fullShare} Fw 4) ∗ (((c : Thread nD τ).loc main_v11) ↦{fullShare} Fw 5) ∗ (((c : Thread nD τ).loc main_v8) ↦{fullShare} Fw 6) ∗ (((c : Thread nD τ).loc main_v12) ↦{fullShare} Fw 7) ∗ (((c : Thread nD τ).loc main_v9) ↦{fullShare} Fw 8) ∗ (((c : Thread nD τ).loc main_v13) ↦{fullShare} Fw 9) ∗ (((c : Thread nD τ).loc main_v6) ↦{fullShare} Fw 10) ∗ (((c : Thread nD τ).loc main_v10) ↦{fullShare} Fw 11) ∗ (((c : Thread nD τ).loc main_v14) ↦{fullShare} Fw 12) ∗ (((c : Thread nD τ).loc main_v15) ↦{fullShare} Fw 13)) := by
  have h : (dat1 V c).arrays Fw = bigSep Finset.univ fun w : Fin cfg1.W =>
      (((c : Thread nD τ).loc (Pipeline.arrRef spec1 w)) ↦{(dat1 V c).share w} Fw w : sProp 𝕄) := by
    unfold Dat.arrays
    exact bigSep_congr fun w _ => by rw [(arr_whole1 w).set_eq_univ]
  rw [h, bigSep_W1]
  rfl

theorem arrays1_of_arrBufs (V0 : (c : Dev nD) → (b : Ref sig .tc) → Buf (Elt F) ((c : Thread nD τ).loc b)) (c : Dev nD)
    (V : (b : Ref sig .tc) → Buf (Elt F) ((c : Thread nD τ).loc b)) :
    (Pipeline.arrBufs (Ix := Unit) (Name := ℕ) (U := UR sig nD τ) (Lvl := ℕ) spec1 c V : sProp 𝕄)
      ⊢ (dat1 V0 c).arrays (fun w => V (Pipeline.arrRef spec1 w)) := by
  rw [arrBufs1_eq, arrays1_eq]
  exact sep_mono .rfl (sep_mono .rfl ((sep_mono (pointsTo_share (PosShare.mem_left_op_right fullShare)).1 .rfl).trans sep_assoc))

theorem arrBufs_of_arrays1 (V0 : (c : Dev nD) → (b : Ref sig .tc) → Buf (Elt F) ((c : Thread nD τ).loc b)) (c : Dev nD)
    (V : (b : Ref sig .tc) → Buf (Elt F) ((c : Thread nD τ).loc b)) :
    (dat1 V0 c).arrays (fun w => V (Pipeline.arrRef spec1 w))
      ⊢ (Pipeline.arrBufs (Ix := Unit) (Name := ℕ) (U := UR sig nD τ) (Lvl := ℕ) spec1 c V : sProp 𝕄) := by
  rw [arrBufs1_eq, arrays1_eq]
  exact sep_mono .rfl (sep_mono .rfl (sep_assoc'.trans (sep_mono (pointsTo_share (PosShare.mem_left_op_right fullShare)).2 .rfl)))

theorem hF1 (c : Dev nD) (w : Fin cfg1.W) : (pdats m 1 c).arrAt w cfg1.N = V4 m (outs m) c (Pipeline.arrRef spec1 w) := by
  have hin : ∀ w : Fin cfg1.W, (cfg1.win w).isOut = false → Pipeline.arrRef spec1 w ∉ ([main_v15] : List (Ref sig .tc)) →
      (pdats m 1 c).arrAt w cfg1.N = V4 m (outs m) c (Pipeline.arrRef spec1 w) := fun w hw hne =>
    (((pdats m 1 c).arrAt_in w hw _).trans (A_eq1 (E3 m) c w)).trans
      ((congrFun (V3_outs m c) _).symm.trans (V4_of m (outs m) c _ hne).symm)
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ => exact hin 6 rfl (by decide)
  | ⟨7, _⟩ => exact hin 7 rfl (by decide)
  | ⟨8, _⟩ => exact hin 8 rfl (by decide)
  | ⟨9, _⟩ => exact hin 9 rfl (by decide)
  | ⟨10, _⟩ => exact hin 10 rfl (by decide)
  | ⟨11, _⟩ => exact hin 11 rfl (by decide)
  | ⟨12, _⟩ => exact hin 12 rfl (by decide)
  | ⟨13, _⟩ =>
    show outArr m c = V4 m (outs m) c main_v15
    rw [← outs_v15 m 4 c]
    simp only [V4, Function.update_self]

theorem hrest1 (c : Dev nD) : ∀ b, b ∉ Finset.univ.image (Pipeline.arrRef spec1) → V4 m (outs m) c b = E3 m c b :=
  fun b hb => (V4_of m (outs m) c b fun h => hb (by
    rw [List.mem_singleton.mp h]; exact Finset.mem_image.mpr ⟨13, Finset.mem_univ _, rfl⟩)).trans (congrFun (V3_outs m c) _)

set_option backward.isDefEq.respectTransparency.types false in

def reg1 : RegionSeg (pcfgs (F := F)) adm (pdats m) () defs₀ Variants.none Lv lvl 1 where
  win := winFacts₀1
  block_pos := block_pos1
  stage_whole := stage_whole1
  K := PEmpty
  osem k := k.elim
  ho := Pipeline.OwnSemFacts.none _
  hbody c := (body_obligation1 (E3 m) c).loose
  hwaits := Pipeline.hwaits_of_owed_zero _ _ _ _ Lv lvl 1 fun _ _ => rfl
  pre c := iprop(StableHlo.held (c : Thread nD τ) (Pipeline.ucRefs τ sig) (V3 m (outs m) c) ∗ Rst c)
  post c := iprop(StableHlo.held (c : Thread nD τ) (Pipeline.ucRefs τ sig) (V4 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none, V3_outs m c]
    have hsplit : (unscopedBufs (Ix := Unit) (Name := ℕ) (U := UR sig nD τ) (Lvl := ℕ) c (E3 m c) : sProp 𝕄)
        ⊢ iprop((pdats m 1 c).arrays ((pdats m 1 c).arrAt · 0)
            ∗ Pipeline.unscopedRest (Ix := Unit) (Name := ℕ) (U := UR sig nD τ) (Lvl := ℕ) spec1 c (E3 m c)) := by
      rw [Pipeline.unscopedBufs_split₀ cfgs 1 winFacts₀1.arr_unscoped c (E3 m c)]
      exact sep_mono (arrays1_of_arrBufs (E3 m) c (E3 m c)) .rfl
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    icases HO with ⟨%W, HO⟩; iexists W; isplitr; · ipureintro; exact fun _ _ => Or.inl trivial
    iexact HO
  hin c := by
    refine .trans ?_ (hin1 (E3 m) c)
    unfold Pipeline.ΦA
    iintro ⟨Hp, -, Hr⟩; iframe
  hout c := by
    rw [Pipeline.ownSems0_none]
    refine (hout1 (E3 m) c).trans ?_
    unfold Pipeline.ΦA
    iintro ⟨Hr, Hp⟩
    iframe Hp Hr
    iempintro
  hexit c := by
    have hjoin : iprop((pdats m 1 c).arrays ((pdats m 1 c).arrAt · cfg1.N)
          ∗ Pipeline.unscopedRest (Ix := Unit) (Name := ℕ) (U := UR sig nD τ) (Lvl := ℕ) spec1 c (E3 m c))
        ⊢ (unscopedBufs (Ix := Unit) (Name := ℕ) (U := UR sig nD τ) (Lvl := ℕ) c (fun b => V4 m (outs m) c b) : sProp 𝕄) := by
      rw [Pipeline.unscopedBufs_split₀ cfgs 1 winFacts₀1.arr_unscoped c (fun b => V4 m (outs m) c b)]
      refine sep_mono ?_ (Entails.of_eq ?_)
      · have h1 : (pdats m 1 c).arrays ((pdats m 1 c).arrAt · cfg1.N)
            = (dat1 (E3 m) c).arrays (fun w => (fun b : Ref sig .tc => V4 m (outs m) c b) (Pipeline.arrRef spec1 w)) :=
          congrArg (dat1 (E3 m) c).arrays (funext (hF1 m c))
        rw [h1]
        exact arrBufs_of_arrays1 (E3 m) c (fun b => V4 m (outs m) c b)
      · unfold Pipeline.unscopedRest
        exact bigSep_congr fun b hb => by beta_reduce; rw [hrest1 m c b (Finset.mem_sdiff.mp hb).2]
    rw [Pipeline.unscopedBufs_held] at hjoin
    iintro ⟨Ha, HO, HY, Hrest⟩
    imodintro
    isplitl [Ha Hrest]
    · iapply hjoin; iframe
    isplitl [HY]; · iexact HY
    unfold Pipeline.Dat.owesAt Pipeline.owesWithin
    icases HO with ⟨%W, -, HO⟩; iexists W; iexact HO

set_option backward.isDefEq.respectTransparency.types false in

theorem run_main : θ_run defs (onTc (τ := τ) (main (F := F))) ⟨m, fun _ => 0, ρ⟩
    (fun r => ∀ c : Dev nD, ∀ b ∈ Pipeline.ucRefs τ sig, r.2.mem (((c : Thread nD τ)).1, b) = V5 m (outs m) c b) :=
  run_cond m emb₁ () Variants.none Lv lvl (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ => Rst)
    (Pipeline.initEach Lv lvl fun c => by
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl) (reg1 m) (fun _ => .rfl) (fun _ => .rfl)

/-- Every unscoped buffer ends at the last valuation. -/
theorem value_main : θ_run defs (onTc (τ := τ) (main (F := F))) ⟨m, fun _ => 0, ρ⟩ (fun r => ∀ (c : Dev nD) (b : Ref sig .tc),
    ¬(Proc.devRef .tc b : DevRef τ sig).isScoped → r.2.mem ((c.tc : Thread nD τ).loc b) = V5 m (outs m) c b) :=
  (θ_run defs _ _).mono (fun _ h c b hb => h c (Proc.devRef .tc b) (Finset.mem_filter.mpr ⟨StableHlo.devRef_mem_tcRefs b, hb⟩)) (run_main m ρ)

end Cert.KernelIdeal.Hand

end
-- ==== Proof.BlocksBits.lean ====
/- Window w's block at grid point t, read off the array the region finds. -/
import proofs.«125986_j72834055406175_1_alg».proof.Proof.Gen.Kernel.Launch
import proofs.«125986_j72834055406175_1_alg».proof.Proof.Gen.Kernel.Skeleton
import proofs.«125986_j72834055406175_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

end Cert.Kernel.Hand

end
-- ==== Proof.PoolRunsBits.lean ====
/- The pooling body run once per control case, with what its stores leave in the output row. -/
import proofs.«125986_j72834055406175_1_alg».proof.Proof.BlocksBits
import proofs.«125986_j72834055406175_1_alg».proof.Proof.LibBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0_0 (i : grid0.Coords) : Prop := (Scalar.cmpi .ne (Scalar.extui (Scalar.cmpi .eq (BitVec.ofNat 32 (i 0).val) 0#32)) 0#32) = 1#1

theorem hcond0_0 : ∀ t : Fin cfg0.N, cond0_0 (grid0.coords t) ↔ t.val % 8 = 0 :=
  (by decide +kernel : ∀ t : Fin grid0.N, cond0_0 (grid0.coords t) ↔ t.val % 8 = 0)

abbrev cond0_1 (i : grid0.Coords) : Prop := (Scalar.cmpi .ne (Scalar.extui (Scalar.cmpi .eq (BitVec.ofNat 32 (i 0).val) 7#32)) 0#32) = 1#1

theorem hcond0_1 : ∀ t : Fin cfg0.N, cond0_1 (grid0.coords t) ↔ t.val % 8 = 7 :=
  (by decide +kernel : ∀ t : Fin grid0.N, cond0_1 (grid0.coords t) ↔ t.val % 8 = 7)

open Cert.Hand (zeros2)

section
variable (c : Dev nD) (i : grid0.Coords) (arg1 : Memref sig .tc .vmem S1024x512 .f32) (harg1 : arg1.IsWhole) (arg2 : Memref sig .tc .vmem S1x1024 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1x1 .f32) (harg5 : arg5.IsWhole) (arg6 : Memref sig .tc .vmem S1x512 .f32) (harg6 : arg6.IsWhole)
  (x0 : Vec F S1024x512 .f32) (x1 : Vec F S1x1024 .f32) (x2 : Vec F S512x512 .f32) (x3 : Vec F S1x512 .f32) (x4 : Vec F S1x1 .f32)

set_option maxHeartbeats 1000000 in
/-- At the first point the row is reset and then takes the point's masked product. -/
theorem run0_A (hc0 : cond0_0 i) (hc1 : ¬cond0_1 i) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay2 x0 x2 x3 x1 (k0_pay1 (F := F)))) -∗ K ⟨⟩))
      ⊢ wp frame (wpE (defs₀ (F := F)) Variants.none c none) E (cc0__hg_kernel i arg1 harg1 arg2 harg2 arg3 harg3 arg4 harg4 arg5 harg5 arg6 harg6) K := by
  simp only [cc0__hg_kernel_eq_skeleton]; unfold cc0__hg_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := harg1.eq_unread hf1; obtain rfl := harg2.eq_unread hf2; obtain rfl := harg3.eq_unread hf3; obtain rfl := harg4.eq_unread hf4; obtain rfl := harg5.eq_unread hf5
  sl_exec (disch := first | exact hc0 | exact hc1)
  sl_step
  iapply Hk
  isplitl [H1]; · iexists _; isplitr; (· ipureintro; exact hf1); iexact H1
  isplitl [H2]; · iexists _; isplitr; (· ipureintro; exact hf2); iexact H2
  isplitl [H3]; · iexists _; isplitr; (· ipureintro; exact hf3); iexact H3
  isplitl [H4]; · iexists _; isplitr; (· ipureintro; exact hf4); iexact H4
  isplitl [H5]; · iexists _; isplitr; (· ipureintro; exact hf5); iexact H5
  iexists _; isplitr
  swap; · iexact H6
  ipureintro; sl_unfold_words
  rw [Cert.Hand.read_writes_whole _ _ zeros2]
  simp only [View.readAt_eq_ld, harg1.read_unread, harg2.read_unread, harg3.read_unread, harg4.read_unread, harg5.read_unread, harg6.read_unread,
    View.ld_unit_zero (S := S1024x512) zeros2, View.ld_unit_zero (S := S1x1024) zeros2, View.ld_unit_zero (S := S512x512) zeros2,
    View.ld_unit_zero (S := S1x512) zeros2, View.ld_unit_zero (S := S1x1) zeros2, View.readCov_unit_zero (S := S1x512) _ zeros2]

set_option maxHeartbeats 1000000 in
/-- At a middle point the row it holds takes the point's masked product. -/
theorem run0_B (hc0 : ¬cond0_0 i) (hc1 : ¬cond0_1 i) (xo5 : Vec F S1x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay2 x0 x2 x3 x1 xo5)) -∗ K ⟨⟩))
      ⊢ wp frame (wpE (defs₀ (F := F)) Variants.none c none) E (cc0__hg_kernel i arg1 harg1 arg2 harg2 arg3 harg3 arg4 harg4 arg5 harg5 arg6 harg6) K := by
  simp only [cc0__hg_kernel_eq_skeleton]; unfold cc0__hg_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6
  sl_exec (disch := first | exact hc0 | exact hc1)
  sl_step
  iapply Hk
  isplitl [H1]; · iexists _; isplitr; (· ipureintro; exact hf1); iexact H1
  isplitl [H2]; · iexists _; isplitr; (· ipureintro; exact hf2); iexact H2
  isplitl [H3]; · iexists _; isplitr; (· ipureintro; exact hf3); iexact H3
  isplitl [H4]; · iexists _; isplitr; (· ipureintro; exact hf4); iexact H4
  isplitl [H5]; · iexists _; isplitr; (· ipureintro; exact hf5); iexact H5
  iexists _; isplitr
  swap; · iexact H6
  ipureintro; sl_unfold_words
  rw [Cert.Hand.read_writes_whole _ _ zeros2]
  simp only [View.readAt_eq_ld, harg1.read_unread, harg2.read_unread, harg3.read_unread, harg4.read_unread, harg5.read_unread, harg6.read_unread,
    View.ld_unit_zero (S := S1024x512) zeros2, View.ld_unit_zero (S := S1x1024) zeros2, View.ld_unit_zero (S := S512x512) zeros2,
    View.ld_unit_zero (S := S1x512) zeros2, View.ld_unit_zero (S := S1x1) zeros2]

set_option maxHeartbeats 1000000 in
/-- At the last point it does so and is then divided by the mask's total. -/
theorem run0_C (hc0 : ¬cond0_0 i) (hc1 : cond0_1 i) (xo5 : Vec F S1x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay3 (k0_pay2 x0 x2 x3 x1 xo5) x4)) -∗ K ⟨⟩))
      ⊢ wp frame (wpE (defs₀ (F := F)) Variants.none c none) E (cc0__hg_kernel i arg1 harg1 arg2 harg2 arg3 harg3 arg4 harg4 arg5 harg5 arg6 harg6) K := by
  simp only [cc0__hg_kernel_eq_skeleton]; unfold cc0__hg_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6
  sl_exec (disch := first | exact hc0 | exact hc1)
  sl_step
  iapply Hk
  isplitl [H1]; · iexists _; isplitr; (· ipureintro; exact hf1); iexact H1
  isplitl [H2]; · iexists _; isplitr; (· ipureintro; exact hf2); iexact H2
  isplitl [H3]; · iexists _; isplitr; (· ipureintro; exact hf3); iexact H3
  isplitl [H4]; · iexists _; isplitr; (· ipureintro; exact hf4); iexact H4
  isplitl [H5]; · iexists _; isplitr; (· ipureintro; exact hf5); iexact H5
  iexists _; isplitr
  swap; · iexact H6
  ipureintro; sl_unfold_words
  rw [Cert.Hand.read_writes_whole _ _ zeros2]
  simp only [View.readAt_eq_ld, harg1.read_unread, harg2.read_unread, harg3.read_unread, harg4.read_unread, harg5.read_unread, harg6.read_unread,
    View.ld_unit_zero (S := S1024x512) zeros2, View.ld_unit_zero (S := S1x1024) zeros2, View.ld_unit_zero (S := S512x512) zeros2,
    View.ld_unit_zero (S := S1x512) zeros2, View.ld_unit_zero (S := S1x1) zeros2, View.readCov_unit_zero (S := S1x512) _ zeros2]

end

end Cert.Kernel.Hand

end
-- ==== Proof.PoolDataBits.lean ====
/- The pooling call: the running row after each grid point, and the body's triple at any point. -/
import proofs.«125986_j72834055406175_1_alg».proof.Proof.BlocksBits
import proofs.«125986_j72834055406175_1_alg».proof.Proof.PoolRunsBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def acc0 (c : Dev nD) : (n : ℕ) → n < cfg0.N → Vec F S1x512 .f32
  | 0, hn => k0_pay2 (iblk0 V c 0 ⟨0, hn⟩) (iblk0 V c 2 ⟨0, hn⟩) (iblk0 V c 3 ⟨0, hn⟩) (iblk0 V c 1 ⟨0, hn⟩) (k0_pay1 (F := F))
  | n + 1, hn =>
    if (n + 1) % 8 = 7 then
      k0_pay3 (k0_pay2 (iblk0 V c 0 ⟨n + 1, hn⟩) (iblk0 V c 2 ⟨n + 1, hn⟩) (iblk0 V c 3 ⟨n + 1, hn⟩) (iblk0 V c 1 ⟨n + 1, hn⟩) (acc0 c n (Nat.lt_of_succ_lt hn))) (iblk0 V c 4 ⟨n + 1, hn⟩)
    else
      k0_pay2 (iblk0 V c 0 ⟨n + 1, hn⟩) (iblk0 V c 2 ⟨n + 1, hn⟩) (iblk0 V c 3 ⟨n + 1, hn⟩) (iblk0 V c 1 ⟨n + 1, hn⟩) (acc0 c n (Nat.lt_of_succ_lt hn))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := rfl

theorem after0_5 (c : Dev nD) (t : Fin cfg0.N) : (dat0 V c).after 5 t = acc0 V c t.val t.isLt := rfl

private theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
private theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
private theorem before0_2 (c : Dev nD) (t : Fin cfg0.N) (d) : (dat0 V c).before 2 t d = iblk0 V c 2 t :=
  (dat0 V c).before_in_eq_fetched 2 rfl (fun _ => rfl) (fun _ _ _ => rfl) (fun _ => rfl) t d
private theorem before0_3 (c : Dev nD) (t : Fin cfg0.N) (d) : (dat0 V c).before 3 t d = iblk0 V c 3 t :=
  (dat0 V c).before_in_eq_fetched 3 rfl (fun _ => rfl) (fun _ _ _ => rfl) (fun _ => rfl) t d
private theorem before0_4 (c : Dev nD) (t : Fin cfg0.N) (d) : (dat0 V c).before 4 t d = iblk0 V c 4 t :=
  (dat0 V c).before_in_eq_fetched 4 rfl (fun _ => rfl) (fun _ _ _ => rfl) (fun _ => rfl) t d

private theorem before0_5_kept (c : Dev nD) (t : Fin cfg0.N) (h0 : ¬t.val % 8 = 0) (d) :
    (dat0 V c).before 5 t d = (acc0 V c (t.val - 1) (Nat.lt_of_le_of_lt (Nat.sub_le _ _) t.isLt)) := by
  have hN : t.val < 8 := lt_of_lt_of_eq t.isLt (show cfg0.N = 8 from N_0)
  rw [Dat.before_out_kept _ 5 rfl t (by omega) (Bool.eq_false_iff.mpr fun h => by have := (flush0_5 _).mp h; dsimp only at this; omega)
    (fun _ => rfl) (fun _ _ => rfl)]
  dsimp only [dat0]

private theorem acc0_A (c : Dev nD) (t : Fin cfg0.N) (h0 : t.val % 8 = 0) :
    acc0 V c t.val t.isLt = k0_pay2 (iblk0 V c 0 t) (iblk0 V c 2 t) (iblk0 V c 3 t) (iblk0 V c 1 t) (k0_pay1 (F := F)) := by
  obtain ⟨n, hn⟩ := t
  have hN : n < 8 := lt_of_lt_of_eq hn (show cfg0.N = 8 from N_0)
  cases n with
  | zero => rfl
  | succ n => exfalso; dsimp only at h0; omega

private theorem acc0_B (c : Dev nD) (t : Fin cfg0.N) (h0 : ¬t.val % 8 = 0) (h1 : ¬t.val % 8 = 7) :
    acc0 V c t.val t.isLt = k0_pay2 (iblk0 V c 0 t) (iblk0 V c 2 t) (iblk0 V c 3 t) (iblk0 V c 1 t) (acc0 V c (t.val - 1) (Nat.lt_of_le_of_lt (Nat.sub_le _ _) t.isLt)) := by
  obtain ⟨n, hn⟩ := t
  cases n with
  | zero => exact absurd (Nat.zero_mod _) h0
  | succ n => exact (if_neg h1).trans rfl

private theorem acc0_C (c : Dev nD) (t : Fin cfg0.N) (h1 : t.val % 8 = 7) :
    acc0 V c t.val t.isLt = k0_pay3 (k0_pay2 (iblk0 V c 0 t) (iblk0 V c 2 t) (iblk0 V c 3 t) (iblk0 V c 1 t) (acc0 V c (t.val - 1) (Nat.lt_of_le_of_lt (Nat.sub_le _ _) t.isLt))) (iblk0 V c 4 t) := by
  obtain ⟨n, hn⟩ := t
  cases n with
  | zero => exfalso; dsimp only at h1; omega
  | succ n => exact (if_pos h1).trans rfl

private def bodyPre0 (c : Dev nD) (t : Fin cfg0.N) : sProp 𝕄 :=
  iprop(Pipeline.ΦA spec0 c ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

private def bodyPost0 (c : Dev nD) (t : Fin cfg0.N) : sProp 𝕄 :=
  iprop(Pipeline.ΦA spec0 c ∗ (dat0 V c).owesAt () t.castSucc
    ∗ owns (c : Thread nD τ) (st0_0 t) fullShare (iblk0 V c 0 t)
    ∗ owns (c : Thread nD τ) (st0_1 t) fullShare (iblk0 V c 1 t)
    ∗ owns (c : Thread nD τ) (st0_2 t) fullShare (iblk0 V c 2 t)
    ∗ owns (c : Thread nD τ) (st0_3 t) fullShare (iblk0 V c 3 t)
    ∗ owns (c : Thread nD τ) (st0_4 t) fullShare (iblk0 V c 4 t)
    ∗ owns (c : Thread nD τ) (st0_5 t) fullShare (acc0 V c t.val t.isLt))

set_option maxHeartbeats 1600000 in
/-- At each point the output's buffer holds the running row: reset at the first point, divided at the last. -/
private theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  have hN : t.val < 8 := lt_of_lt_of_eq t.isLt (show cfg0.N = 8 from N_0)
  by_cases h0 : t.val % 8 = 0
  · have h1 : ¬t.val % 8 = 7 := by omega
    rw [acc0_A V c t h0]
    iintro ⟨HΦ, Ho, ⟨%d0, H0⟩, ⟨%d1, H1⟩, ⟨%d2, H2⟩, ⟨%d3, H3⟩, ⟨%d4, H4⟩, ⟨%d5, H5⟩⟩
    iapply (run0_A c (grid0.coords t) _ _ _ _ _ _ _ _ _ _ _ _ (iblk0 V c 0 t) (iblk0 V c 1 t) (iblk0 V c 2 t) (iblk0 V c 3 t) (iblk0 V c 4 t) ((hcond0_0 t).mpr h0) (fun h => h1 ((hcond0_1 t).mp h)) Set.univ _)
    iframe H0 H1 H2 H3 H4
    isplitl [H5]; · iexists _; iexact H5
    iintro ⟨H0, H1, H2, H3, H4, H5⟩
    iframe
  · have hc0 : ¬cond0_0 (grid0.coords t) := fun h => h0 ((hcond0_0 t).mp h)
    simp only [before0_5_kept V c t h0]
    by_cases h1 : t.val % 8 = 7
    · rw [acc0_C V c t h1]
      iintro ⟨HΦ, Ho, ⟨%d0, H0⟩, ⟨%d1, H1⟩, ⟨%d2, H2⟩, ⟨%d3, H3⟩, ⟨%d4, H4⟩, ⟨%d5, H5⟩⟩
      iapply (run0_C c (grid0.coords t) _ _ _ _ _ _ _ _ _ _ _ _ (iblk0 V c 0 t) (iblk0 V c 1 t) (iblk0 V c 2 t) (iblk0 V c 3 t) (iblk0 V c 4 t) hc0 ((hcond0_1 t).mpr h1) (acc0 V c (t.val - 1) (Nat.lt_of_le_of_lt (Nat.sub_le _ _) t.isLt)) Set.univ _)
      iframe H0 H1 H2 H3 H4
      iframe H5
      iintro ⟨H0, H1, H2, H3, H4, H5⟩
      iframe
    · rw [acc0_B V c t h0 h1]
      iintro ⟨HΦ, Ho, ⟨%d0, H0⟩, ⟨%d1, H1⟩, ⟨%d2, H2⟩, ⟨%d3, H3⟩, ⟨%d4, H4⟩, ⟨%d5, H5⟩⟩
      iapply (run0_B c (grid0.coords t) _ _ _ _ _ _ _ _ _ _ _ _ (iblk0 V c 0 t) (iblk0 V c 1 t) (iblk0 V c 2 t) (iblk0 V c 3 t) (iblk0 V c 4 t) hc0 (fun h => h1 ((hcond0_1 t).mp h)) (acc0 V c (t.val - 1) (Nat.lt_of_le_of_lt (Nat.sub_le _ _) t.isLt)) Set.univ _)
      iframe H0 H1 H2 H3 H4
      iframe H5
      iintro ⟨H0, H1, H2, H3, H4, H5⟩
      iframe

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.LayerRunsBits.lean ====
/- The layer body run once per control case, with what its stores leave in the accumulators and the output tile. -/
import proofs.«125986_j72834055406175_1_alg».proof.Proof.BlocksBits
import proofs.«125986_j72834055406175_1_alg».proof.Proof.LibBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop := k1_cond2 i = 1#1

theorem hcond1_1 : ∀ t : Fin cfg1.N, cond1_1 (grid1.coords t) ↔ t.val % 8 = 7 :=
  (by decide +kernel : ∀ t : Fin grid1.N, cond1_1 (grid1.coords t) ↔ t.val % 8 = 7)

theorem idleAt1_13_A : ∀ t : Fin cfg1.N, cond1_0 (grid1.coords t) → ¬cond1_1 (grid1.coords t) → cfg1.idle 13 (grid1.coords t) = true := by decide +kernel
theorem noFlush1_13_A : ∀ t : Fin cfg1.N, cond1_0 (grid1.coords t) → ¬cond1_1 (grid1.coords t) → (cfg1.win 13).flush t = false := by decide +kernel
theorem idleAt1_13_B : ∀ t : Fin cfg1.N, ¬cond1_0 (grid1.coords t) → ¬cond1_1 (grid1.coords t) → cfg1.idle 13 (grid1.coords t) = true := by decide +kernel
theorem noFlush1_13_B : ∀ t : Fin cfg1.N, ¬cond1_0 (grid1.coords t) → ¬cond1_1 (grid1.coords t) → (cfg1.win 13).flush t = false := by decide +kernel
theorem liveAt1_13_C : ∀ t : Fin cfg1.N, ¬cond1_0 (grid1.coords t) → cond1_1 (grid1.coords t) → cfg1.idle 13 (grid1.coords t) = false := by decide +kernel

open Cert.Hand (zeros2)

section
variable (c : Dev nD) (i : grid1.Coords) (arg2 : Memref sig .tc .vmem S1024x1024 .f32) (harg2 : arg2.IsWhole) (arg3 : Memref sig .tc .vmem S1024x1024 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S512x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S512x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S512x512 .f32) (harg13 : arg13.IsWhole) (arg14 : Memref sig .tc .vmem S1x512 .f32) (harg14 : arg14.IsWhole) (arg15 : Memref sig .tc .vmem S1024x512 .f32) (harg15 : arg15.IsWhole) (arg16 : Memref sig .tc .vmem S1024x512 .f32) (harg16 : arg16.IsWhole) (arg17 : Memref sig .tc .vmem S1024x512 .f32) (harg17 : arg17.IsWhole)
  (x0 x1 : Vec F S1024x1024 .f32) (x2 : Vec F S1024x512 .f32)

set_option maxHeartbeats 1000000 in
/-- Where k = 0 both accumulators are reset and then take the point's products. -/
theorem run1_A (hc0 : cond1_0 i) (hc1 : ¬cond1_1 i) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg16 fullShare d) ∗ (∃ d, owns (c : Thread nD τ) arg17 fullShare d)
        ∗ (iprop(owns (c : Thread nD τ) arg2 fullShare x0 ∗ owns (c : Thread nD τ) arg3 fullShare x1 ∗ owns (c : Thread nD τ) arg4 fullShare x2 ∗ owns (c : Thread nD τ) arg16 fullShare (k1_pay4 x0 x2 (k1_pay1 (F := F))) ∗ owns (c : Thread nD τ) arg17 fullShare (k1_pay5 x1 x2 (k1_pay2 (F := F)))) -∗ K ⟨⟩))
      ⊢ wp frame (wpE (defs₀ (F := F)) Variants.none c none) E (cc1__main_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc1__main_kernel_eq_skeleton]; unfold cc1__main_kernel_skel
  unfold owns
  iintro ⟨⟨%f0, %hf0, H0⟩, ⟨%f1, %hf1, H1⟩, ⟨%f2, %hf2, H2⟩, ⟨%ds0, %fs0, -, HS0⟩, ⟨%ds1, %fs1, -, HS1⟩, Hk⟩
  obtain rfl := harg2.eq_unread hf0; obtain rfl := harg3.eq_unread hf1; obtain rfl := harg4.eq_unread hf2
  sl_exec (disch := first | exact hc0 | exact hc1)
  sl_step
  iapply Hk
  isplitl [H0]; · iexists _; isplitr; (· ipureintro; exact hf0); iexact H0
  isplitl [H1]; · iexists _; isplitr; (· ipureintro; exact hf1); iexact H1
  isplitl [H2]; · iexists _; isplitr; (· ipureintro; exact hf2); iexact H2
  isplitl [HS0]
  · iexists _; isplitr; swap; · iexact HS0
    ipureintro; sl_unfold_words; rw [Cert.Hand.read_writes_whole _ _ zeros2]
    simp only [View.readAt_eq_ld, harg2.read_unread, harg3.read_unread, harg4.read_unread, harg16.read_unread, harg17.read_unread,
      View.ld_unit_zero (S := S1024x1024) zeros2, View.ld_unit_zero (S := S1024x512) zeros2, View.readCov_unit_zero (S := S1024x512) _ zeros2]
  iexists _; isplitr; swap; · iexact HS1
  ipureintro; sl_unfold_words; rw [Cert.Hand.read_writes_whole _ _ zeros2]
  simp only [View.readAt_eq_ld, harg2.read_unread, harg3.read_unread, harg4.read_unread, harg16.read_unread, harg17.read_unread,
      View.ld_unit_zero (S := S1024x1024) zeros2, View.ld_unit_zero (S := S1024x512) zeros2, View.readCov_unit_zero (S := S1024x512) _ zeros2]

set_option maxHeartbeats 1000000 in
/-- Where 0 < k < 7 each accumulator takes the product of this point's tiles. -/
theorem run1_B (hc0 : ¬cond1_0 i) (hc1 : ¬cond1_1 i) (xs0 xs1 : Vec F S1024x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg16 fullShare xs0 ∗ owns (c : Thread nD τ) arg17 fullShare xs1
        ∗ (iprop(owns (c : Thread nD τ) arg2 fullShare x0 ∗ owns (c : Thread nD τ) arg3 fullShare x1 ∗ owns (c : Thread nD τ) arg4 fullShare x2 ∗ owns (c : Thread nD τ) arg16 fullShare (k1_pay4 x0 x2 xs0) ∗ owns (c : Thread nD τ) arg17 fullShare (k1_pay5 x1 x2 xs1)) -∗ K ⟨⟩))
      ⊢ wp frame (wpE (defs₀ (F := F)) Variants.none c none) E (cc1__main_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc1__main_kernel_eq_skeleton]; unfold cc1__main_kernel_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  obtain rfl := harg2.eq_unread hf0; obtain rfl := harg3.eq_unread hf1; obtain rfl := harg4.eq_unread hf2
  obtain rfl := harg16.eq_unread hfs0; obtain rfl := harg17.eq_unread hfs1
  sl_exec (disch := first | exact hc0 | exact hc1)
  sl_step
  iapply Hk
  isplitl [H0]; · iexists _; isplitr; (· ipureintro; exact hf0); iexact H0
  isplitl [H1]; · iexists _; isplitr; (· ipureintro; exact hf1); iexact H1
  isplitl [H2]; · iexists _; isplitr; (· ipureintro; exact hf2); iexact H2
  isplitl [HS0]
  · iexists _; isplitr; swap; · iexact HS0
    ipureintro; sl_unfold_words; rw [Cert.Hand.read_writes_whole _ _ zeros2]
    simp only [View.readAt_eq_ld, harg2.read_unread, harg3.read_unread, harg4.read_unread, harg16.read_unread, harg17.read_unread,
      View.ld_unit_zero (S := S1024x1024) zeros2, View.ld_unit_zero (S := S1024x512) zeros2, View.readCov_unit_zero (S := S1024x512) _ zeros2]
  iexists _; isplitr; swap; · iexact HS1
  ipureintro; sl_unfold_words; rw [Cert.Hand.read_writes_whole _ _ zeros2]
  simp only [View.readAt_eq_ld, harg2.read_unread, harg3.read_unread, harg4.read_unread, harg16.read_unread, harg17.read_unread,
      View.ld_unit_zero (S := S1024x1024) zeros2, View.ld_unit_zero (S := S1024x512) zeros2, View.readCov_unit_zero (S := S1024x512) _ zeros2]

set_option maxHeartbeats 2000000 in
/-- Where k = 7 they do so and the epilogue stores the output tile computed from them. -/
theorem run1_C (hc0 : ¬cond1_0 i) (hc1 : cond1_1 i) (x3 : Vec F S1024x512 .f32) (x4 : Vec F S512x512 .f32) (x5 : Vec F S1x512 .f32) (x6 : Vec F S512x512 .f32) (x7 : Vec F S1x512 .f32) (x8 : Vec F S512x512 .f32) (x9 : Vec F S1x512 .f32) (x10 : Vec F S1x512 .f32) (x11 : Vec F S512x512 .f32) (x12 : Vec F S1x512 .f32) (xs0 xs1 : Vec F S1024x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ owns (c : Thread nD τ) arg16 fullShare xs0 ∗ owns (c : Thread nD τ) arg17 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare (k1_pay6 (k1_pay7 x3 x4 x5 (k1_pay4 x0 x2 xs0) x6 x7 (k1_pay5 x1 x2 xs1) x8 x9) (k1_pay8 x10 x11) x12) ∗ owns (c : Thread nD τ) arg16 fullShare (k1_pay4 x0 x2 xs0) ∗ owns (c : Thread nD τ) arg17 fullShare (k1_pay5 x1 x2 xs1)) -∗ K ⟨⟩))
      ⊢ wp frame (wpE (defs₀ (F := F)) Variants.none c none) E (cc1__main_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc1__main_kernel_eq_skeleton]; unfold cc1__main_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
  obtain rfl := harg16.eq_unread hfs0; obtain rfl := harg17.eq_unread hfs1
  sl_exec (disch := first | exact hc0 | exact hc1)
  sl_step
  iapply Hk
  isplitl [H0]; · iexists _; isplitr; (· ipureintro; exact hf0); iexact H0
  isplitl [H1]; · iexists _; isplitr; (· ipureintro; exact hf1); iexact H1
  isplitl [H2]; · iexists _; isplitr; (· ipureintro; exact hf2); iexact H2
  isplitl [H3]; · iexists _; isplitr; (· ipureintro; exact hf3); iexact H3
  isplitl [H4]; · iexists _; isplitr; (· ipureintro; exact hf4); iexact H4
  isplitl [H5]; · iexists _; isplitr; (· ipureintro; exact hf5); iexact H5
  isplitl [H6]; · iexists _; isplitr; (· ipureintro; exact hf6); iexact H6
  isplitl [H7]; · iexists _; isplitr; (· ipureintro; exact hf7); iexact H7
  isplitl [H8]; · iexists _; isplitr; (· ipureintro; exact hf8); iexact H8
  isplitl [H9]; · iexists _; isplitr; (· ipureintro; exact hf9); iexact H9
  isplitl [H10]; · iexists _; isplitr; (· ipureintro; exact hf10); iexact H10
  isplitl [H11]; · iexists _; isplitr; (· ipureintro; exact hf11); iexact H11
  isplitl [H12]; · iexists _; isplitr; (· ipureintro; exact hf12); iexact H12
  isplitl [H13]
  · iexists _; isplitr; swap; · iexact H13
    ipureintro; sl_unfold_words; rw [Cert.Hand.read_writes_whole _ _ zeros2]
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg16.read_unread, harg17.read_unread,
      View.ld_unit_zero (S := S1024x1024) zeros2, View.ld_unit_zero (S := S1024x512) zeros2, View.ld_unit_zero (S := S512x512) zeros2, View.ld_unit_zero (S := S1x512) zeros2,
      View.readCov_unit_zero (S := S1024x512) _ zeros2]
  isplitl [HS0]
  · iexists _; isplitr; swap; · iexact HS0
    ipureintro; sl_unfold_words; rw [Cert.Hand.read_writes_whole _ _ zeros2]
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg16.read_unread, harg17.read_unread,
      View.ld_unit_zero (S := S1024x1024) zeros2, View.ld_unit_zero (S := S1024x512) zeros2, View.ld_unit_zero (S := S512x512) zeros2, View.ld_unit_zero (S := S1x512) zeros2,
      View.readCov_unit_zero (S := S1024x512) _ zeros2]
  iexists _; isplitr; swap; · iexact HS1
  ipureintro; sl_unfold_words; rw [Cert.Hand.read_writes_whole _ _ zeros2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg16.read_unread, harg17.read_unread,
      View.ld_unit_zero (S := S1024x1024) zeros2, View.ld_unit_zero (S := S1024x512) zeros2, View.ld_unit_zero (S := S512x512) zeros2, View.ld_unit_zero (S := S1x512) zeros2,
      View.readCov_unit_zero (S := S1024x512) _ zeros2]

end

end Cert.Kernel.Hand

end
-- ==== Proof.LayerDataBits.lean ====
/- The layer call: the two neighbour sums after each grid point, the region's invariant, and the body's triple at any point. -/
import proofs.«125986_j72834055406175_1_alg».proof.Proof.BlocksBits
import proofs.«125986_j72834055406175_1_alg».proof.Proof.LayerRunsBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def accs1 (c : Dev nD) : (n : ℕ) → n < cfg1.N → Vec F S1024x512 .f32 × Vec F S1024x512 .f32
  | 0, hn => (k1_pay4 (iblk1 V c 0 ⟨0, hn⟩) (iblk1 V c 2 ⟨0, hn⟩) (k1_pay1 (F := F)), k1_pay5 (iblk1 V c 1 ⟨0, hn⟩) (iblk1 V c 2 ⟨0, hn⟩) (k1_pay2 (F := F)))
  | n + 1, hn =>
    if (n + 1) % 8 = 0 then
      (k1_pay4 (iblk1 V c 0 ⟨n + 1, hn⟩) (iblk1 V c 2 ⟨n + 1, hn⟩) (k1_pay1 (F := F)), k1_pay5 (iblk1 V c 1 ⟨n + 1, hn⟩) (iblk1 V c 2 ⟨n + 1, hn⟩) (k1_pay2 (F := F)))
    else
      (k1_pay4 (iblk1 V c 0 ⟨n + 1, hn⟩) (iblk1 V c 2 ⟨n + 1, hn⟩) (accs1 c n (Nat.lt_of_succ_lt hn)).1, k1_pay5 (iblk1 V c 1 ⟨n + 1, hn⟩) (iblk1 V c 2 ⟨n + 1, hn⟩) (accs1 c n (Nat.lt_of_succ_lt hn)).2)

def out1 (c : Dev nD) (t : Fin cfg1.N) : Vec F S1024x512 .f32 :=
  k1_pay6 (k1_pay7 (iblk1 V c 3 t) (iblk1 V c 4 t) (iblk1 V c 5 t) (accs1 V c t.val t.isLt).1 (iblk1 V c 6 t) (iblk1 V c 7 t) (accs1 V c t.val t.isLt).2 (iblk1 V c 8 t) (iblk1 V c 9 t))
    (k1_pay8 (iblk1 V c 10 t) (iblk1 V c 11 t)) (iblk1 V c 12 t)

abbrev scM1_0 : Memref sig .tc .vmem S1024x512 .f32 := Memref.whole cc1_scratch0
abbrev scM1_1 : Memref sig .tc .vmem S1024x512 .f32 := Memref.whole cc1_scratch1

def restS1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f))

def PhiS1 (c : Dev nD) : (n : ℕ) → n ≤ cfg1.N → sProp 𝕄
  | 0, _ => Pipeline.ΦA spec1 c
  | n + 1, hn => iprop(owns (c : Thread nD τ) scM1_0 fullShare (accs1 V c n hn).1 ∗ owns (c : Thread nD τ) scM1_1 fullShare (accs1 V c n hn).2 ∗ restS1 (F := F) c ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => out1 V c t
  Φ t := PhiS1 V c t.val (Nat.le_of_lt_succ t.isLt)
  q w := match w with
    | ⟨2, _⟩ => fullShare.left
    | ⟨3, _⟩ => fullShare.right
    | _ => fullShare
  owed _ := 0

theorem A_eq1 (c : Dev nD) (w : Fin cfg1.W) : (dat1 V c).A w = V c (Pipeline.arrRef spec1 w) := rfl

theorem after1_13 (c : Dev nD) (t : Fin cfg1.N) : (dat1 V c).after 13 t = out1 V c t := rfl

theorem accs1_A (c : Dev nD) (t : Fin cfg1.N) (h0 : t.val % 8 = 0) :
    accs1 V c t.val t.isLt = (k1_pay4 (iblk1 V c 0 t) (iblk1 V c 2 t) (k1_pay1 (F := F)), k1_pay5 (iblk1 V c 1 t) (iblk1 V c 2 t) (k1_pay2 (F := F))) := by
  obtain ⟨n, hn⟩ := t
  cases n with
  | zero => rfl
  | succ n => exact (if_pos h0).trans rfl

theorem accs1_B (c : Dev nD) (t : Fin cfg1.N) (h0 : ¬t.val % 8 = 0) :
    accs1 V c t.val t.isLt = (k1_pay4 (iblk1 V c 0 t) (iblk1 V c 2 t) (accs1 V c (t.val - 1) (Nat.lt_of_le_of_lt (Nat.sub_le _ _) t.isLt)).1, k1_pay5 (iblk1 V c 1 t) (iblk1 V c 2 t) (accs1 V c (t.val - 1) (Nat.lt_of_le_of_lt (Nat.sub_le _ _) t.isLt)).2) := by
  obtain ⟨n, hn⟩ := t
  cases n with
  | zero => exact absurd (Nat.zero_mod _) h0
  | succ n => exact (if_neg h0).trans rfl

theorem PhiS1_pos (c : Dev nD) (n : ℕ) (h : n ≤ cfg1.N) (hz : n ≠ 0) :
    PhiS1 V c n h = iprop(owns (c : Thread nD τ) scM1_0 fullShare (accs1 V c (n - 1) (by omega)).1 ∗ owns (c : Thread nD τ) scM1_1 fullShare (accs1 V c (n - 1) (by omega)).2 ∗ restS1 (F := F) c ∗ (∃ r, prngReg c r)) := by
  cases n with
  | zero => exact absurd rfl hz
  | succ n => rfl

/-- What the region starts from: the two accumulators at any contents, beside the rest. -/
theorem PhiA1_iff (c : Dev nD) : (Pipeline.ΦA spec1 c : sProp 𝕄) ⊣⊢ iprop((∃ d, owns (c : Thread nD τ) scM1_0 fullShare d) ∗ (∃ d, owns (c : Thread nD τ) scM1_1 fullShare d) ∗ restS1 (F := F) c ∗ (∃ r, prngReg c r)) := by
  unfold Pipeline.ΦA restS1; rw [scopedRest1_eq]; simp only [scM1_0, scM1_1, owns_whole]
  constructor
  · iintro ⟨⟨A1, A2, A3, A4, A5, A6, A7, A8, HS0, HS1⟩, Hg⟩; iframe
  · iintro ⟨HS0, HS1, ⟨A1, A2, A3, A4, A5, A6, A7, A8⟩, Hg⟩; iframe

theorem PhiS1_weak (c : Dev nD) (n : ℕ) (h : n ≤ cfg1.N) : PhiS1 V c n h ⊢ iprop((∃ d, owns (c : Thread nD τ) scM1_0 fullShare d) ∗ (∃ d, owns (c : Thread nD τ) scM1_1 fullShare d) ∗ restS1 (F := F) c ∗ (∃ r, prngReg c r)) := by
  cases n with
  | zero => exact (PhiA1_iff c).1
  | succ n =>
    show iprop(_ ∗ _ ∗ _ ∗ _) ⊢ _
    iintro ⟨HS0, HS1, HR, Hg⟩
    iframe HR Hg
    isplitl [HS0] <;> iexists _ <;> iassumption

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d
theorem before1_3 (c : Dev nD) (t : Fin cfg1.N) (d) : (dat1 V c).before 3 t d = iblk1 V c 3 t :=
  (dat1 V c).before_in_eq_fetched 3 rfl (fun _ => rfl) (fun _ _ _ => rfl) (fun _ => rfl) t d
theorem before1_4 (c : Dev nD) (t : Fin cfg1.N) (d) : (dat1 V c).before 4 t d = iblk1 V c 4 t :=
  (dat1 V c).before_in_eq_fetched 4 rfl (fun _ => rfl) (fun _ _ _ => rfl) (fun _ => rfl) t d
theorem before1_5 (c : Dev nD) (t : Fin cfg1.N) (d) : (dat1 V c).before 5 t d = iblk1 V c 5 t :=
  (dat1 V c).before_in_eq_fetched 5 rfl (fun _ => rfl) (fun _ _ _ => rfl) (fun _ => rfl) t d
theorem before1_6 (c : Dev nD) (t : Fin cfg1.N) (d) : (dat1 V c).before 6 t d = iblk1 V c 6 t :=
  (dat1 V c).before_in_eq_fetched 6 rfl (fun _ => rfl) (fun _ _ _ => rfl) (fun _ => rfl) t d
theorem before1_7 (c : Dev nD) (t : Fin cfg1.N) (d) : (dat1 V c).before 7 t d = iblk1 V c 7 t :=
  (dat1 V c).before_in_eq_fetched 7 rfl (fun _ => rfl) (fun _ _ _ => rfl) (fun _ => rfl) t d
theorem before1_8 (c : Dev nD) (t : Fin cfg1.N) (d) : (dat1 V c).before 8 t d = iblk1 V c 8 t :=
  (dat1 V c).before_in_eq_fetched 8 rfl (fun _ => rfl) (fun _ _ _ => rfl) (fun _ => rfl) t d
theorem before1_9 (c : Dev nD) (t : Fin cfg1.N) (d) : (dat1 V c).before 9 t d = iblk1 V c 9 t :=
  (dat1 V c).before_in_eq_fetched 9 rfl (fun _ => rfl) (fun _ _ _ => rfl) (fun _ => rfl) t d
theorem before1_10 (c : Dev nD) (t : Fin cfg1.N) (d) : (dat1 V c).before 10 t d = iblk1 V c 10 t :=
  (dat1 V c).before_in_eq_fetched 10 rfl (fun _ => rfl) (fun _ _ _ => rfl) (fun _ => rfl) t d
theorem before1_11 (c : Dev nD) (t : Fin cfg1.N) (d) : (dat1 V c).before 11 t d = iblk1 V c 11 t :=
  (dat1 V c).before_in_eq_fetched 11 rfl (fun _ => rfl) (fun _ _ _ => rfl) (fun _ => rfl) t d
theorem before1_12 (c : Dev nD) (t : Fin cfg1.N) (d) : (dat1 V c).before 12 t d = iblk1 V c 12 t :=
  (dat1 V c).before_in_eq_fetched 12 rfl (fun _ => rfl) (fun _ _ _ => rfl) (fun _ => rfl) t d

def bodyPre1 (c : Dev nD) (t : Fin cfg1.N) : sProp 𝕄 :=
  iprop(PhiS1 V c t.val (Nat.le_of_lt t.isLt) ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d)))

def bodyPost1 (c : Dev nD) (t : Fin cfg1.N) : sProp 𝕄 :=
  iprop(iprop(owns (c : Thread nD τ) scM1_0 fullShare (accs1 V c t.val t.isLt).1 ∗ owns (c : Thread nD τ) scM1_1 fullShare (accs1 V c t.val t.isLt).2 ∗ restS1 (F := F) c ∗ (∃ r, prngReg c r)) ∗ (dat1 V c).owesAt () t.castSucc
    ∗ owns (c : Thread nD τ) (st1_0 t) fullShare (iblk1 V c 0 t)
    ∗ owns (c : Thread nD τ) (st1_1 t) fullShare (iblk1 V c 1 t)
    ∗ owns (c : Thread nD τ) (st1_2 t) fullShare (iblk1 V c 2 t)
    ∗ owns (c : Thread nD τ) (st1_3 t) fullShare (iblk1 V c 3 t)
    ∗ owns (c : Thread nD τ) (st1_4 t) fullShare (iblk1 V c 4 t)
    ∗ owns (c : Thread nD τ) (st1_5 t) fullShare (iblk1 V c 5 t)
    ∗ owns (c : Thread nD τ) (st1_6 t) fullShare (iblk1 V c 6 t)
    ∗ owns (c : Thread nD τ) (st1_7 t) fullShare (iblk1 V c 7 t)
    ∗ owns (c : Thread nD τ) (st1_8 t) fullShare (iblk1 V c 8 t)
    ∗ owns (c : Thread nD τ) (st1_9 t) fullShare (iblk1 V c 9 t)
    ∗ owns (c : Thread nD τ) (st1_10 t) fullShare (iblk1 V c 10 t)
    ∗ owns (c : Thread nD τ) (st1_11 t) fullShare (iblk1 V c 11 t)
    ∗ owns (c : Thread nD τ) (st1_12 t) fullShare (iblk1 V c 12 t)
    ∗ (dat1 V c).leavesExact 13 t)

set_option maxHeartbeats 4800000 in
/-- The invariant lends the body the two accumulators and takes them back at this point's sums; the output tile is written only where k = 7. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12]
  have hN : t.val < 64 := lt_of_lt_of_eq t.isLt (show cfg1.N = 64 from N_1)
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 13 t (idleAt1_13_A t hc0 hc1) (noFlush1_13_A t hc0 hc1)]
    simp only [accs1_A V c t h0]
    refine (sep_mono (PhiS1_weak V c t.val _) .rfl).trans ?_
    iintro ⟨⟨HS0, HS1, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, H13⟩
    iapply (run1_A c (grid1.coords t) _ _ _ _ _ _ _ _ _ _ _ _ _ _ _ _ _ _ _ _ _ _ _ _ _ _ _ _ _ _ _ _ (iblk1 V c 0 t) (iblk1 V c 1 t) (iblk1 V c 2 t) hc0 hc1 Set.univ _)
    iframe H0 H1 H2 HS0 HS1
    iintro ⟨H0, H1, H2, HS0, HS1⟩
    iframe
  · have hc0 : ¬cond1_0 (grid1.coords t) := fun h => h0 ((hcond1_0 t).mp h)
    rw [PhiS1_pos V c _ _ fun e => h0 (by rw [e])]
    by_cases h1 : t.val % 8 = 7
    · have hc1 : cond1_1 (grid1.coords t) := (hcond1_1 t).mpr h1
      rw [show (dat1 V c).leavesExact 13 t = owns (c : Thread nD τ) (st1_13 t) fullShare (out1 V c t) from by
        unfold Dat.leavesExact; rw [liveAt1_13_C t hc0 hc1]; rfl]
      unfold out1
      simp only [accs1_B V c t h0]
      iintro ⟨⟨HS0, HS1, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (run1_C c (grid1.coords t) _ _ _ _ _ _ _ _ _ _ _ _ _ _ _ _ _ _ _ _ _ _ _ _ _ _ _ _ _ _ _ _ (iblk1 V c 0 t) (iblk1 V c 1 t) (iblk1 V c 2 t) hc0 hc1 (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (accs1 V c (t.val - 1) (Nat.lt_of_le_of_lt (Nat.sub_le _ _) t.isLt)).1 (accs1 V c (t.val - 1) (Nat.lt_of_le_of_lt (Nat.sub_le _ _) t.isLt)).2 Set.univ _)
      iframe H0 H1 H2 H3 H4 H5 H6 H7 H8 H9 H10 H11 H12 HS0 HS1
      isplitl [H13]; · iexists _; iexact H13
      iintro ⟨H0, H1, H2, H3, H4, H5, H6, H7, H8, H9, H10, H11, H12, H13, HS0, HS1⟩
      iframe
    · have hc1 : ¬cond1_1 (grid1.coords t) := fun h => h1 ((hcond1_1 t).mp h)
      rw [Dat.leavesExact_idle (dat1 V c) 13 t (idleAt1_13_B t hc0 hc1) (noFlush1_13_B t hc0 hc1)]
      simp only [accs1_B V c t h0]
      iintro ⟨⟨HS0, HS1, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, H13⟩
      iapply (run1_B c (grid1.coords t) _ _ _ _ _ _ _ _ _ _ _ _ _ _ _ _ _ _ _ _ _ _ _ _ _ _ _ _ _ _ _ _ (iblk1 V c 0 t) (iblk1 V c 1 t) (iblk1 V c 2 t) hc0 hc1 (accs1 V c (t.val - 1) (Nat.lt_of_le_of_lt (Nat.sub_le _ _) t.isLt)).1 (accs1 V c (t.val - 1) (Nat.lt_of_le_of_lt (Nat.sub_le _ _) t.isLt)).2 Set.univ _)
      iframe H0 H1 H2 HS0 HS1
      iintro ⟨H0, H1, H2, HS0, HS1⟩
      iframe

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := .rfl

theorem hout1 (c : Dev nD) : (dat1 V c).Φ (Fin.last cfg1.N) ⊢ Pipeline.ΦA spec1 c :=
  (PhiS1_weak V c (Fin.last cfg1.N).val (Nat.le_of_lt_succ (Fin.last cfg1.N).isLt)).trans (PhiA1_iff c).2

end Cert.Kernel.Hand

end
-- ==== Proof.ProgramRunBits.lean ====
/- The program as host stretches and the two regions, each entered from what the items before it left. -/
import proofs.«125986_j72834055406175_1_alg».proof.Proof.RunCondBits
import proofs.«125986_j72834055406175_1_alg».proof.Proof.PoolDataBits
import proofs.«125986_j72834055406175_1_alg».proof.Proof.LayerDataBits
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev E1 : (c : Dev nD) → (b : Ref sig .tc) → Buf (Elt F) ((c : Thread nD τ).loc b) := fun c b => V1 m c b

def hgArr (c : Dev nD) : Buf (Elt F) ((c : Thread nD τ).loc main_v6) := (dat0 (E1 m) c).arrAt 5 cfg0.N

def outs1 : Outs (F := F) := fun _ r c => if h : r = main_v6 then h ▸ hgArr m c else m ((c : Thread nD τ).loc r)

abbrev E3 : (c : Dev nD) → (b : Ref sig .tc) → Buf (Elt F) ((c : Thread nD τ).loc b) := fun c b => V3 m (outs1 m) c b

def outArr (c : Dev nD) : Buf (Elt F) ((c : Thread nD τ).loc main_v15) := (dat1 (E3 m) c).arrAt 13 cfg1.N

def outs : Outs (F := F) := fun J r c => if h : r = main_v15 then h ▸ outArr m c else outs1 m J r c

theorem outs_v6 (J : ℕ) (c : Dev nD) : outs m J main_v6 c = hgArr m c := by
  have h : (main_v6 : Ref sig .tc) ≠ main_v15 := by decide
  unfold outs outs1
  rw [dif_neg h, dif_pos rfl]
theorem outs_v15 (J : ℕ) (c : Dev nD) : outs m J main_v15 c = outArr m c := by
  unfold outs
  rw [dif_pos rfl]

theorem V3_outs (c : Dev nD) : V3 m (outs m) c = V3 m (outs1 m) c := by
  have h1 : outs1 m 2 main_v6 c = hgArr m c := by unfold outs1; rw [dif_pos rfl]
  unfold V3 V2
  rw [outs_v6, h1]

def pdats : (p : Fin 2) → (c : Dev nD) → Dat τ (Elt F) Unit ℕ (UR sig nD τ) ℕ (cfgs p) c
  | ⟨0, _⟩ => fun c => dat0 (E1 m) c
  | ⟨1, _⟩ => fun c => dat1 (E3 m) c

abbrev Lv : GSem nD τ sig → Finset Unit := fun _ => ∅
abbrev lvl : GSem nD τ sig → Unit → ℕ := fun _ _ => 0

abbrev Rst (c : Dev nD) : sProp 𝕄 := iprop((∃ r, prngReg c r) ∗ ∃ W, owes (c : Thread nD τ) (0 : CellTallies nD τ sig Unit) W)

theorem hF0 (c : Dev nD) (w : Fin cfg0.W) : (pdats m 0 c).arrAt w cfg0.N = V2 m (outs m) c (Pipeline.arrRef spec0 w) := by
  have hin : ∀ w : Fin cfg0.W, (cfg0.win w).isOut = false → Pipeline.arrRef spec0 w ∉ ([main_v6] : List (Ref sig .tc)) →
      (pdats m 0 c).arrAt w cfg0.N = V2 m (outs m) c (Pipeline.arrRef spec0 w) := fun w hw hne =>
    (((pdats m 0 c).arrAt_in w hw _).trans (A_eq0 (E1 m) c w)).trans (V2_of m (outs m) c _ hne).symm
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ =>
    show hgArr m c = V2 m (outs m) c main_v6
    rw [← outs_v6 m 2 c]
    simp only [V2, Function.update_self]

theorem hrest0 (c : Dev nD) : ∀ b, b ∉ Finset.univ.image (Pipeline.arrRef spec0) → V2 m (outs m) c b = V1 m c b :=
  fun b hb => V2_of m (outs m) c b fun h => hb (by
    rw [List.mem_singleton.mp h]; exact Finset.mem_image.mpr ⟨5, Finset.mem_univ _, rfl⟩)

set_option backward.isDefEq.respectTransparency.types false in

def reg0 : RegionSeg (pcfgs (F := F)) adm (pdats m) () defs₀ Variants.none Lv lvl 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ Lv lvl 0 fun _ _ => rfl
  pre c := iprop(StableHlo.held (c : Thread nD τ) (Pipeline.ucRefs τ sig) (V1 m c) ∗ Rst c)
  post c := iprop(StableHlo.held (c : Thread nD τ) (Pipeline.ucRefs τ sig) (V2 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    icases HO with ⟨%W, HO⟩; iexists W; isplitr; · ipureintro; exact fun _ _ => Or.inl trivial
    iexact HO
  hin c := by
    rw [show (pdats m 0 c).Φ 0 = Pipeline.ΦA spec0 c from rfl]; unfold Pipeline.ΦA
    iintro ⟨Hp, -, Hr⟩; iframe
  hout c := by
    rw [Pipeline.ownSems0_none, show (pdats m 0 c).Φ (Fin.last _) = Pipeline.ΦA spec0 c from rfl]; unfold Pipeline.ΦA
    iintro ⟨Hr, Hp⟩
    iframe Hp Hr
    iempintro
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; iframe
    isplitl [HY]; · iexact HY
    unfold Pipeline.Dat.owesAt Pipeline.owesWithin
    icases HO with ⟨%W, -, HO⟩; iexists W; iexact HO

abbrev arrList1 : List (Ref sig .tc) := [main_arg2, main_arg3, main_v0, main_v7, main_v11, main_v8, main_v12, main_v9, main_v13, main_v6, main_v10, main_v14, main_v15]

theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg2) ↦{fullShare} V main_arg2) ∗ (((c : Thread nD τ).loc main_arg3) ↦{fullShare} V main_arg3) ∗ (((c : Thread nD τ).loc main_v0) ↦{fullShare} V main_v0) ∗ (((c : Thread nD τ).loc main_v7) ↦{fullShare} V main_v7) ∗ (((c : Thread nD τ).loc main_v11) ↦{fullShare} V main_v11) ∗ (((c : Thread nD τ).loc main_v8) ↦{fullShare} V main_v8) ∗ (((c : Thread nD τ).loc main_v12) ↦{fullShare} V main_v12) ∗ (((c : Thread nD τ).loc main_v9) ↦{fullShare} V main_v9) ∗ (((c : Thread nD τ).loc main_v13) ↦{fullShare} V main_v13) ∗ (((c : Thread nD τ).loc main_v6) ↦{fullShare} V main_v6) ∗ (((c : Thread nD τ).loc main_v10) ↦{fullShare} V main_v10) ∗ (((c : Thread nD τ).loc main_v14) ↦{fullShare} V main_v14) ∗ (((c : Thread nD τ).loc main_v15) ↦{fullShare} V main_v15)) := by
  unfold Pipeline.arrBufs
  exact bigSep_eq_bigSepL_of_eq arrList1 (by decide) (by decide) _

theorem arrays1_eq (V : (c : Dev nD) → (b : Ref sig .tc) → Buf (Elt F) ((c : Thread nD τ).loc b)) (c : Dev nD)
    (Fw : (w : Fin cfg1.W) → Buf (Elt F) ((cfg1.win w).arr.view.loc (c : Thread nD τ))) :
    (dat1 V c).arrays Fw
      = iprop((((c : Thread nD τ).loc main_arg2) ↦{fullShare} Fw 0) ∗ (((c : Thread nD τ).loc main_arg3) ↦{fullShare} Fw 1) ∗ (((c : Thread nD τ).loc main_v0) ↦{fullShare.left} Fw 2) ∗ (((c : Thread nD τ).loc main_v0) ↦{fullShare.right} Fw 3) ∗ (((c : Thread nD τ).loc main_v7) ↦{fullShare} Fw 4) ∗ (((c : Thread nD τ).loc main_v11) ↦{fullShare} Fw 5) ∗ (((c : Thread nD τ).loc main_v8) ↦{fullShare} Fw 6) ∗ (((c : Thread nD τ).loc main_v12) ↦{fullShare} Fw 7) ∗ (((c : Thread nD τ).loc main_v9) ↦{fullShare} Fw 8) ∗ (((c : Thread nD τ).loc main_v13) ↦{fullShare} Fw 9) ∗ (((c : Thread nD τ).loc main_v6) ↦{fullShare} Fw 10) ∗ (((c : Thread nD τ).loc main_v10) ↦{fullShare} Fw 11) ∗ (((c : Thread nD τ).loc main_v14) ↦{fullShare} Fw 12) ∗ (((c : Thread nD τ).loc main_v15) ↦{fullShare} Fw 13)) := by
  have h : (dat1 V c).arrays Fw = bigSep Finset.univ fun w : Fin cfg1.W =>
      (((c : Thread nD τ).loc (Pipeline.arrRef spec1 w)) ↦{(dat1 V c).share w} Fw w : sProp 𝕄) := by
    unfold Dat.arrays
    exact bigSep_congr fun w _ => by rw [(arr_whole1 w).set_eq_univ]
  rw [h, bigSep_W1]
  rfl

theorem arrays1_of_arrBufs (V0 : (c : Dev nD) → (b : Ref sig .tc) → Buf (Elt F) ((c : Thread nD τ).loc b)) (c : Dev nD)
    (V : (b : Ref sig .tc) → Buf (Elt F) ((c : Thread nD τ).loc b)) :
    (Pipeline.arrBufs (Ix := Unit) (Name := ℕ) (U := UR sig nD τ) (Lvl := ℕ) spec1 c V : sProp 𝕄)
      ⊢ (dat1 V0 c).arrays (fun w => V (Pipeline.arrRef spec1 w)) := by
  rw [arrBufs1_eq, arrays1_eq]
  exact sep_mono .rfl (sep_mono .rfl ((sep_mono (pointsTo_share (PosShare.mem_left_op_right fullShare)).1 .rfl).trans sep_assoc))

theorem arrBufs_of_arrays1 (V0 : (c : Dev nD) → (b : Ref sig .tc) → Buf (Elt F) ((c : Thread nD τ).loc b)) (c : Dev nD)
    (V : (b : Ref sig .tc) → Buf (Elt F) ((c : Thread nD τ).loc b)) :
    (dat1 V0 c).arrays (fun w => V (Pipeline.arrRef spec1 w))
      ⊢ (Pipeline.arrBufs (Ix := Unit) (Name := ℕ) (U := UR sig nD τ) (Lvl := ℕ) spec1 c V : sProp 𝕄) := by
  rw [arrBufs1_eq, arrays1_eq]
  exact sep_mono .rfl (sep_mono .rfl (sep_assoc'.trans (sep_mono (pointsTo_share (PosShare.mem_left_op_right fullShare)).2 .rfl)))

theorem hF1 (c : Dev nD) (w : Fin cfg1.W) : (pdats m 1 c).arrAt w cfg1.N = V4 m (outs m) c (Pipeline.arrRef spec1 w) := by
  have hin : ∀ w : Fin cfg1.W, (cfg1.win w).isOut = false → Pipeline.arrRef spec1 w ∉ ([main_v15] : List (Ref sig .tc)) →
      (pdats m 1 c).arrAt w cfg1.N = V4 m (outs m) c (Pipeline.arrRef spec1 w) := fun w hw hne =>
    (((pdats m 1 c).arrAt_in w hw _).trans (A_eq1 (E3 m) c w)).trans
      ((congrFun (V3_outs m c) _).symm.trans (V4_of m (outs m) c _ hne).symm)
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ => exact hin 6 rfl (by decide)
  | ⟨7, _⟩ => exact hin 7 rfl (by decide)
  | ⟨8, _⟩ => exact hin 8 rfl (by decide)
  | ⟨9, _⟩ => exact hin 9 rfl (by decide)
  | ⟨10, _⟩ => exact hin 10 rfl (by decide)
  | ⟨11, _⟩ => exact hin 11 rfl (by decide)
  | ⟨12, _⟩ => exact hin 12 rfl (by decide)
  | ⟨13, _⟩ =>
    show outArr m c = V4 m (outs m) c main_v15
    rw [← outs_v15 m 4 c]
    simp only [V4, Function.update_self]

theorem hrest1 (c : Dev nD) : ∀ b, b ∉ Finset.univ.image (Pipeline.arrRef spec1) → V4 m (outs m) c b = E3 m c b :=
  fun b hb => (V4_of m (outs m) c b fun h => hb (by
    rw [List.mem_singleton.mp h]; exact Finset.mem_image.mpr ⟨13, Finset.mem_univ _, rfl⟩)).trans (congrFun (V3_outs m c) _)

set_option backward.isDefEq.respectTransparency.types false in

def reg1 : RegionSeg (pcfgs (F := F)) adm (pdats m) () defs₀ Variants.none Lv lvl 1 where
  win := winFacts₀1
  block_pos := block_pos1
  stage_whole := stage_whole1
  K := PEmpty
  osem k := k.elim
  ho := Pipeline.OwnSemFacts.none _
  hbody c := (body_obligation1 (E3 m) c).loose
  hwaits := Pipeline.hwaits_of_owed_zero _ _ _ _ Lv lvl 1 fun _ _ => rfl
  pre c := iprop(StableHlo.held (c : Thread nD τ) (Pipeline.ucRefs τ sig) (V3 m (outs m) c) ∗ Rst c)
  post c := iprop(StableHlo.held (c : Thread nD τ) (Pipeline.ucRefs τ sig) (V4 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none, V3_outs m c]
    have hsplit : (unscopedBufs (Ix := Unit) (Name := ℕ) (U := UR sig nD τ) (Lvl := ℕ) c (E3 m c) : sProp 𝕄)
        ⊢ iprop((pdats m 1 c).arrays ((pdats m 1 c).arrAt · 0)
            ∗ Pipeline.unscopedRest (Ix := Unit) (Name := ℕ) (U := UR sig nD τ) (Lvl := ℕ) spec1 c (E3 m c)) := by
      rw [Pipeline.unscopedBufs_split₀ cfgs 1 winFacts₀1.arr_unscoped c (E3 m c)]
      exact sep_mono (arrays1_of_arrBufs (E3 m) c (E3 m c)) .rfl
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    icases HO with ⟨%W, HO⟩; iexists W; isplitr; · ipureintro; exact fun _ _ => Or.inl trivial
    iexact HO
  hin c := by
    refine .trans ?_ (hin1 (E3 m) c)
    unfold Pipeline.ΦA
    iintro ⟨Hp, -, Hr⟩; iframe
  hout c := by
    rw [Pipeline.ownSems0_none]
    refine (hout1 (E3 m) c).trans ?_
    unfold Pipeline.ΦA
    iintro ⟨Hr, Hp⟩
    iframe Hp Hr
    iempintro
  hexit c := by
    have hjoin : iprop((pdats m 1 c).arrays ((pdats m 1 c).arrAt · cfg1.N)
          ∗ Pipeline.unscopedRest (Ix := Unit) (Name := ℕ) (U := UR sig nD τ) (Lvl := ℕ) spec1 c (E3 m c))
        ⊢ (unscopedBufs (Ix := Unit) (Name := ℕ) (U := UR sig nD τ) (Lvl := ℕ) c (fun b => V4 m (outs m) c b) : sProp 𝕄) := by
      rw [Pipeline.unscopedBufs_split₀ cfgs 1 winFacts₀1.arr_unscoped c (fun b => V4 m (outs m) c b)]
      refine sep_mono ?_ (Entails.of_eq ?_)
      · have h1 : (pdats m 1 c).arrays ((pdats m 1 c).arrAt · cfg1.N)
            = (dat1 (E3 m) c).arrays (fun w => (fun b : Ref sig .tc => V4 m (outs m) c b) (Pipeline.arrRef spec1 w)) :=
          congrArg (dat1 (E3 m) c).arrays (funext (hF1 m c))
        rw [h1]
        exact arrBufs_of_arrays1 (E3 m) c (fun b => V4 m (outs m) c b)
      · unfold Pipeline.unscopedRest
        exact bigSep_congr fun b hb => by beta_reduce; rw [hrest1 m c b (Finset.mem_sdiff.mp hb).2]
    rw [Pipeline.unscopedBufs_held] at hjoin
    iintro ⟨Ha, HO, HY, Hrest⟩
    imodintro
    isplitl [Ha Hrest]
    · iapply hjoin; iframe
    isplitl [HY]; · iexact HY
    unfold Pipeline.Dat.owesAt Pipeline.owesWithin
    icases HO with ⟨%W, -, HO⟩; iexists W; iexact HO

set_option backward.isDefEq.respectTransparency.types false in

theorem run_main : θ_run defs (onTc (τ := τ) (main (F := F))) ⟨m, fun _ => 0, ρ⟩
    (fun r => ∀ c : Dev nD, ∀ b ∈ Pipeline.ucRefs τ sig, r.2.mem (((c : Thread nD τ)).1, b) = V5 m (outs m) c b) :=
  run_cond m emb₁ () Variants.none Lv lvl (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ => Rst)
    (Pipeline.initEach Lv lvl fun c => by
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl) (reg1 m) (fun _ => .rfl) (fun _ => .rfl)

/-- Every unscoped buffer ends at the last valuation. -/
theorem value_main : θ_run defs (onTc (τ := τ) (main (F := F))) ⟨m, fun _ => 0, ρ⟩ (fun r => ∀ (c : Dev nD) (b : Ref sig .tc),
    ¬(Proc.devRef .tc b : DevRef τ sig).isScoped → r.2.mem ((c.tc : Thread nD τ).loc b) = V5 m (outs m) c b) :=
  (θ_run defs _ _).mono (fun _ h c b hb => h c (Proc.devRef .tc b) (Finset.mem_filter.mpr ⟨StableHlo.devRef_mem_tcRefs b, hb⟩)) (run_main m ρ)

end Cert.Kernel.Hand

end
-- ==== Proof.HostValues.lean ====
/- The host stretches' reshapes and transposes, read at an index. -/
import proofs.«125986_j72834055406175_1_alg».proof.Proof.Gen.KernelIdeal.Regions
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem
open ValueIdx

variable {F : FTy → Type} [FloatOps F]
variable (m : (ℓ : Loc nD τ sig) → Buf (Elt F) ℓ) (outs : Outs (F := F))

theorem rowMajor_val_zero (i : S_.Idx) : (S_.rowMajor i).val = 0 := by
  show (Shape.rowMajorPi _ i).val = 0
  exact Shape.rowMajorPi_zero _ _

theorem V1_v0 (c : Dev nD) (r : Fin 8192) (h : Fin 512) :
    (V1 m c main_v0 : Vec F S8192x512 .f32) (ix2 r h)
      = (m ((c : Thread nD τ).loc main_arg0) : Vec F S128x64x512 .f32)
          (ix3 (⟨r.val / 64, by have := r.isLt; omega⟩ : Fin 128) (⟨r.val % 64, Nat.mod_lt _ (by decide)⟩ : Fin 64) h) := by
  have e : (V1 m c main_v0 : Vec F S8192x512 .f32)
      = shapeCast _ (m ((c : Thread nD τ).loc main_arg0) : Vec F S128x64x512 .f32) shapeCasts_S128x64x512_S8192x512 := by
    dsimp only [V1, V0, hostOps0]
    after_results
    rfl
  rw [e]
  exact shapeCast_apply _ shapeCasts_S128x64x512_S8192x512 _ _
    (by rewrite [Shape.rowMajor_val_three, Shape.rowMajor_val_two]
        have h0 := r.isLt; have h1 := h.isLt
        show ((r.val / 64) * 64 + r.val % 64) * 512 + h.val = r.val * 512 + h.val
        omega)

theorem V1_v1 (c : Dev nD) (r : Fin 8192) :
    (V1 m c main_v1 : Vec F S1x8192 .f32) (ix2 (0 : Fin 1) r) = (m ((c : Thread nD τ).loc main_arg1) : Vec F S8192 .f32) (ix1 r) := by
  have e : (V1 m c main_v1 : Vec F S1x8192 .f32)
      = shapeCast _ (m ((c : Thread nD τ).loc main_arg1) : Vec F S8192 .f32) shapeCasts_S8192_S1x8192 := by
    dsimp only [V1, V0, hostOps0]
    after_results
    rfl
  rw [e]
  exact shapeCast_a_1a_apply _ shapeCasts_S8192_S1x8192 (0 : Fin 1) r

theorem V1_v3 (c : Dev nD) :
    (V1 m c main_v3 : Vec F S1x1 .f32) (ix2 (0 : Fin 1) (0 : Fin 1))
      = (Host.reduceAdd (m ((c : Thread nD τ).loc main_arg1) : Vec F S8192 .f32) (constant S_ .f32 0x00000000#32) reducesTo_S8192_S_d0 h_S_ : Vec F S_ .f32) ix0 := by
  have e : (V1 m c main_v3 : Vec F S1x1 .f32)
      = shapeCast _ (Host.reduceAdd (m ((c : Thread nD τ).loc main_arg1) : Vec F S8192 .f32) (constant S_ .f32 0x00000000#32) reducesTo_S8192_S_d0 h_S_ : Vec F S_ .f32) shapeCasts_S_S1x1 := by
    dsimp only [V1, V0, hostOps0]
    after_results
    rfl
  rw [e]
  exact shapeCast_apply _ shapeCasts_S_S1x1 _ _
    (by rewrite [rowMajor_val_zero, Shape.rowMajor_val_two]; rfl)

theorem V1_v4 (c : Dev nD) (h o : Fin 512) :
    (V1 m c main_v4 : Vec F S512x512 .f32) (ix2 h o) = (m ((c : Thread nD τ).loc main_arg10) : Vec F S512x512 .f32) (ix2 o h) := by
  have e : (V1 m c main_v4 : Vec F S512x512 .f32)
      = transpose S512x512 [1, 0] (m ((c : Thread nD τ).loc main_arg10) : Vec F S512x512 .f32) transposes_S512x512_S512x512_1_0 := by
    dsimp only [V1, V0, hostOps0]
    after_results
  rw [e]
  exact transpose_ix2_apply _ transposes_S512x512_S512x512_1_0 h o

theorem V1_v5 (c : Dev nD) (o : Fin 512) :
    (V1 m c main_v5 : Vec F S1x512 .f32) (ix2 (0 : Fin 1) o) = (m ((c : Thread nD τ).loc main_arg11) : Vec F S512 .f32) (ix1 o) := by
  have e : (V1 m c main_v5 : Vec F S1x512 .f32)
      = shapeCast _ (m ((c : Thread nD τ).loc main_arg11) : Vec F S512 .f32) shapeCasts_S512_S1x512 := by
    dsimp only [V1, V0, hostOps0]
    after_results
    rfl
  rw [e]
  exact shapeCast_a_1a_apply _ shapeCasts_S512_S1x512 (0 : Fin 1) o

theorem V2_arg (c : Dev nD) (r : Ref sig .tc) (h0 : r ∉ hostOps0_W) (h1 : r ∉ ([main_v6] : List (Ref sig .tc))) :
    V2 m outs c r = m ((c : Thread nD τ).loc r) :=
  (V2_of m outs c r h1).trans ((V1_of m c r h0).trans rfl)

theorem V3_v0 (c : Dev nD) : V3 m outs c main_v0 = V1 m c main_v0 :=
  (V3_of m outs c main_v0 (by decide)).trans (V2_of m outs c main_v0 (by decide))
theorem V3_arg2 (c : Dev nD) : V3 m outs c main_arg2 = m ((c : Thread nD τ).loc main_arg2) :=
  (V3_of m outs c main_arg2 (by decide)).trans (V2_arg m outs c main_arg2 (by decide) (by decide))
theorem V3_arg3 (c : Dev nD) : V3 m outs c main_arg3 = m ((c : Thread nD τ).loc main_arg3) :=
  (V3_of m outs c main_arg3 (by decide)).trans (V2_arg m outs c main_arg3 (by decide) (by decide))

theorem V3_v6 (c : Dev nD) : V3 m outs c main_v6 = outs 2 main_v6 c :=
  (V3_of m outs c main_v6 (by decide)).trans (Function.update_self _ _ _)

theorem V3_v7 (c : Dev nD) (h o : Fin 512) :
    (V3 m outs c main_v7 : Vec F S512x512 .f32) (ix2 h o) = (m ((c : Thread nD τ).loc main_arg4) : Vec F S512x512 .f32) (ix2 o h) := by
  have e : (V3 m outs c main_v7 : Vec F S512x512 .f32)
      = transpose S512x512 [1, 0] (V2 m outs c main_arg4 : Vec F S512x512 .f32) transposes_S512x512_S512x512_1_0 := by
    dsimp only [V3, hostOps1]
    after_results
  rw [e, V2_arg m outs c main_arg4 (by decide) (by decide)]
  exact transpose_ix2_apply _ transposes_S512x512_S512x512_1_0 h o

theorem V3_v8 (c : Dev nD) (h o : Fin 512) :
    (V3 m outs c main_v8 : Vec F S512x512 .f32) (ix2 h o) = (m ((c : Thread nD τ).loc main_arg6) : Vec F S512x512 .f32) (ix2 o h) := by
  have e : (V3 m outs c main_v8 : Vec F S512x512 .f32)
      = transpose S512x512 [1, 0] (V2 m outs c main_arg6 : Vec F S512x512 .f32) transposes_S512x512_S512x512_1_0 := by
    dsimp only [V3, hostOps1]
    after_results
  rw [e, V2_arg m outs c main_arg6 (by decide) (by decide)]
  exact transpose_ix2_apply _ transposes_S512x512_S512x512_1_0 h o

theorem V3_v9 (c : Dev nD) (h o : Fin 512) :
    (V3 m outs c main_v9 : Vec F S512x512 .f32) (ix2 h o) = (m ((c : Thread nD τ).loc main_arg8) : Vec F S512x512 .f32) (ix2 o h) := by
  have e : (V3 m outs c main_v9 : Vec F S512x512 .f32)
      = transpose S512x512 [1, 0] (V2 m outs c main_arg8 : Vec F S512x512 .f32) transposes_S512x512_S512x512_1_0 := by
    dsimp only [V3, hostOps1]
    after_results
  rw [e, V2_arg m outs c main_arg8 (by decide) (by decide)]
  exact transpose_ix2_apply _ transposes_S512x512_S512x512_1_0 h o

theorem V3_v10 (c : Dev nD) (p o : Fin 512) :
    (V3 m outs c main_v10 : Vec F S512x512 .f32) (ix2 p o) = (m ((c : Thread nD τ).loc main_arg12) : Vec F S512x512 .f32) (ix2 o p) := by
  have e : (V3 m outs c main_v10 : Vec F S512x512 .f32)
      = transpose S512x512 [1, 0] (V2 m outs c main_arg12 : Vec F S512x512 .f32) transposes_S512x512_S512x512_1_0 := by
    dsimp only [V3, hostOps1]
    after_results
  rw [e, V2_arg m outs c main_arg12 (by decide) (by decide)]
  exact transpose_ix2_apply _ transposes_S512x512_S512x512_1_0 p o

theorem V3_v11 (c : Dev nD) (o : Fin 512) :
    (V3 m outs c main_v11 : Vec F S1x512 .f32) (ix2 (0 : Fin 1) o) = (m ((c : Thread nD τ).loc main_arg5) : Vec F S512 .f32) (ix1 o) := by
  have e : (V3 m outs c main_v11 : Vec F S1x512 .f32)
      = shapeCast _ (V2 m outs c main_arg5 : Vec F S512 .f32) shapeCasts_S512_S1x512 := by
    dsimp only [V3, hostOps1]
    after_results
    rfl
  rw [e, V2_arg m outs c main_arg5 (by decide) (by decide)]
  exact shapeCast_a_1a_apply _ shapeCasts_S512_S1x512 (0 : Fin 1) o

theorem V3_v12 (c : Dev nD) (o : Fin 512) :
    (V3 m outs c main_v12 : Vec F S1x512 .f32) (ix2 (0 : Fin 1) o) = (m ((c : Thread nD τ).loc main_arg7) : Vec F S512 .f32) (ix1 o) := by
  have e : (V3 m outs c main_v12 : Vec F S1x512 .f32)
      = shapeCast _ (V2 m outs c main_arg7 : Vec F S512 .f32) shapeCasts_S512_S1x512 := by
    dsimp only [V3, hostOps1]
    after_results
    rfl
  rw [e, V2_arg m outs c main_arg7 (by decide) (by decide)]
  exact shapeCast_a_1a_apply _ shapeCasts_S512_S1x512 (0 : Fin 1) o

theorem V3_v13 (c : Dev nD) (o : Fin 512) :
    (V3 m outs c main_v13 : Vec F S1x512 .f32) (ix2 (0 : Fin 1) o) = (m ((c : Thread nD τ).loc main_arg9) : Vec F S512 .f32) (ix1 o) := by
  have e : (V3 m outs c main_v13 : Vec F S1x512 .f32)
      = shapeCast _ (V2 m outs c main_arg9 : Vec F S512 .f32) shapeCasts_S512_S1x512 := by
    dsimp only [V3, hostOps1]
    after_results
    rfl
  rw [e, V2_arg m outs c main_arg9 (by decide) (by decide)]
  exact shapeCast_a_1a_apply _ shapeCasts_S512_S1x512 (0 : Fin 1) o

theorem V3_v14 (c : Dev nD) (o : Fin 512) :
    (V3 m outs c main_v14 : Vec F S1x512 .f32) (ix2 (0 : Fin 1) o) = (m ((c : Thread nD τ).loc main_arg13) : Vec F S512 .f32) (ix1 o) := by
  have e : (V3 m outs c main_v14 : Vec F S1x512 .f32)
      = shapeCast _ (V2 m outs c main_arg13 : Vec F S512 .f32) shapeCasts_S512_S1x512 := by
    dsimp only [V3, hostOps1]
    after_results
    rfl
  rw [e, V2_arg m outs c main_arg13 (by decide) (by decide)]
  exact shapeCast_a_1a_apply _ shapeCasts_S512_S1x512 (0 : Fin 1) o

theorem V5_v6 (c : Dev nD) : V5 m outs c main_v6 = outs 2 main_v6 c :=
  (V5_of m outs c main_v6 (by decide)).trans ((V4_of m outs c main_v6 (by decide)).trans (V3_v6 m outs c))

theorem V5_v16 (c : Dev nD) (a : Fin 128) (b : Fin 64) (o : Fin 512) :
    (V5 m outs c main_v16 : Vec F S128x64x512 .f32) (ix3 a b o)
      = (outs 4 main_v15 c : Vec F S8192x512 .f32) (ix2 (⟨a.val * 64 + b.val, by have := a.isLt; have := b.isLt; omega⟩ : Fin 8192) o) := by
  have e : (V5 m outs c main_v16 : Vec F S128x64x512 .f32)
      = shapeCast _ (outs 4 main_v15 c : Vec F S8192x512 .f32) shapeCasts_S8192x512_S128x64x512 := by
    have e : (V5 m outs c main_v16 : Vec F S128x64x512 .f32)
        = shapeCast _ (V4 m outs c main_v15 : Vec F S8192x512 .f32) shapeCasts_S8192x512_S128x64x512 := by
      dsimp only [V5, hostOps2]
      after_results
      rfl
    rw [e]
    exact congrArg (fun x : Vec F S8192x512 .f32 => shapeCast _ x shapeCasts_S8192x512_S128x64x512) (Function.update_self _ _ _)
  rw [e]
  exact shapeCast_apply _ shapeCasts_S8192x512_S128x64x512 _ _
    (by rewrite [Shape.rowMajor_val_three, Shape.rowMajor_val_two]; rfl)

end Cert.KernelIdeal.Hand

end
-- ==== Proof.Spec.lean ====
/- The two results as functions of the arguments: the pooled row and the layer's output. -/
import Idealize.ShloMosaic.PureOps.Ideal
import Mathlib.Algebra.BigOperators.Group.Finset.Basic

noncomputable section

namespace Cert.Spec

open Idealize.ShloMosaic

def rows (x : Fin 128 → Fin 64 → Fin 512 → EReal) (r : Fin 8192) (h : Fin 512) : EReal :=
  x ⟨r.val / 64, by have := r.isLt; omega⟩ ⟨r.val % 64, Nat.mod_lt _ (by decide)⟩ h

def pool (xf : Fin 8192 → Fin 512 → EReal) (mask : Fin 8192 → EReal) (Wg : Fin 512 → Fin 512 → EReal) (bg : Fin 512 → EReal)
    (n : EReal) (o : Fin 512) : EReal :=
  Ideal.div (∑ r : Fin 8192, mask r * max (∑ h : Fin 512, xf r h * Wg o h + bg o) 0) n

def nbr (a : Fin 8192 → Fin 8192 → EReal) (xf : Fin 8192 → Fin 512 → EReal) (r : Fin 8192) (h : Fin 512) : EReal :=
  ∑ j : Fin 8192, a r j * xf j h

def layer (xf : Fin 8192 → Fin 512 → EReal) (aud alr : Fin 8192 → Fin 8192 → EReal)
    (W : Fin 512 → Fin 512 → EReal) (b : Fin 512 → EReal) (Wud : Fin 512 → Fin 512 → EReal) (bud : Fin 512 → EReal)
    (Wlr : Fin 512 → Fin 512 → EReal) (blr : Fin 512 → EReal) (hg : Fin 512 → EReal)
    (Wgo : Fin 512 → Fin 512 → EReal) (bgo : Fin 512 → EReal) (r : Fin 8192) (o : Fin 512) : EReal :=
  max ((((∑ h : Fin 512, xf r h * W o h + b o) + (∑ h : Fin 512, nbr aud xf r h * Wud o h + bud o))
        + (∑ h : Fin 512, nbr alr xf r h * Wlr o h + blr o))
      + (∑ p : Fin 512, hg p * Wgo o p + bgo o)) 0

end Cert.Spec

end
-- ==== Proof.LayerSums.lean ====
/- A sum over the 8192 rows is the sum over its eight tiles of 1024 rows, and the partial sums up to a tile. -/
import Mathlib.Algebra.BigOperators.Fin
import Mathlib.Algebra.BigOperators.Group.Finset.Piecewise
import Mathlib.Logic.Equiv.Fin.Basic

namespace Cert.LayerSums

open scoped BigOperators

variable {M : Type*} [AddCommMonoid M]

abbrev tileIdx (k : Fin 8) (j : Fin 1024) : Fin 8192 := ⟨1024 * k.val + j.val, by have := k.isLt; have := j.isLt; omega⟩

theorem sum_tiles (f : Fin 8192 → M) : ∑ k : Fin 8, ∑ j : Fin 1024, f (tileIdx k j) = ∑ r : Fin 8192, f r := by
  rw [← Fintype.sum_prod_type (f := fun q : Fin 8 × Fin 1024 => f (tileIdx q.1 q.2))]
  refine Fintype.sum_equiv (finProdFinEquiv (m := 8) (n := 1024)) _ _ fun q => congrArg f (Fin.ext ?_)
  show 1024 * q.1.val + q.2.val = q.2.val + 1024 * q.1.val
  omega

abbrev upTo (g : Fin 8 → M) (q : ℕ) : M := ∑ k : Fin 8, if k.val ≤ q then g k else 0

theorem upTo_zero (g : Fin 8 → M) : upTo g 0 = g 0 := by
  rw [upTo, Finset.sum_eq_single (0 : Fin 8)]
  · exact if_pos (Nat.le_refl _)
  · intro k _ hk
    rw [if_neg]
    intro h
    exact hk (Fin.ext (Nat.le_zero.mp h))
  · intro h; exact absurd (Finset.mem_univ _) h

theorem upTo_succ (g : Fin 8 → M) (q : ℕ) (hq : q + 1 < 8) : upTo g q + g ⟨q + 1, hq⟩ = upTo g (q + 1) := by
  have e : g ⟨q + 1, hq⟩ = ∑ k : Fin 8, if k = ⟨q + 1, hq⟩ then g k else 0 := by
    rw [Finset.sum_ite_eq' Finset.univ (⟨q + 1, hq⟩ : Fin 8) g, if_pos (Finset.mem_univ _)]
  rw [upTo, upTo, e, ← Finset.sum_add_distrib]
  refine Finset.sum_congr rfl fun k _ => ?_
  by_cases h1 : k.val ≤ q
  · rw [if_pos h1, if_pos (Nat.le_succ_of_le h1), if_neg (fun h => by rw [h] at h1; exact absurd h1 (by simp)), add_zero]
  · by_cases h2 : k = ⟨q + 1, hq⟩
    · rw [if_neg h1, if_pos h2, if_pos (by rw [h2]), zero_add]
    · have : ¬ k.val ≤ q + 1 := fun h => h2 (Fin.ext (by simp only; omega))
      rw [if_neg h1, if_neg h2, if_neg this, zero_add]

theorem upTo_seven (g : Fin 8 → M) : upTo g 7 = ∑ k : Fin 8, g k :=
  Finset.sum_congr rfl fun k _ => if_pos (by have := k.isLt; omega)

end Cert.LayerSums
-- ==== Proof.PoolSums.lean ====
import proofs.«125986_j72834055406175_1_alg».proof.Proof.LayerSums
import Mathlib.Data.EReal.Basic

noncomputable section

namespace Cert.PoolSums

open Cert.LayerSums (tileIdx sum_tiles)

/-- The part of a sum over the 8192 rows that lies in row tile i (zero past the last tile). -/
def tileSum (f : Fin 8192 → EReal) (i : ℕ) : EReal :=
  if h : i < 8 then ∑ j : Fin 1024, f (tileIdx ⟨i, h⟩ j) else 0

theorem tileSum_of_lt (f : Fin 8192 → EReal) (i : ℕ) (h : i < 8) :
    tileSum f i = ∑ j : Fin 1024, f (tileIdx ⟨i, h⟩ j) := dif_pos h

theorem sum_range_tileSum (f : Fin 8192 → EReal) : ∑ i ∈ Finset.range 8, tileSum f i = ∑ r : Fin 8192, f r := by
  rw [← sum_tiles f, ← Fin.sum_univ_eq_sum_range (fun i => tileSum f i) 8]
  exact Finset.sum_congr rfl fun i _ => tileSum_of_lt f i.val i.isLt

end Cert.PoolSums

end
-- ==== Proof.PoolValue.lean ====
/- After the eight grid points the pooling call's output row is Spec.pool of the arrays it was entered with. -/
import proofs.«125986_j72834055406175_1_alg».proof.Proof.PoolData
import proofs.«125986_j72834055406175_1_alg».proof.Proof.Spec
import proofs.«125986_j72834055406175_1_alg».proof.Proof.PoolSums
import proofs.«125986_j72834055406175_1_alg».proof.Proof.LibBody
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.IdealValue

open Cert.KernelIdeal Cert.KernelIdeal.Gen Cert.KernelIdeal.Hand
open Idealize.ShloMosaic Idealize.ShloMosaic.TcCoe Idealize.SL.Sem
open Idealize.ShloMosaic.Pipeline (Dat)
open ValueIdx

/-- The row tile times Wgᵀ into a zero accumulator: the sum over the 512 hidden coordinates. -/
theorem xw_apply (a : FVec Ideal S1024x512 .f32) (b : FVec Ideal S512x512 .f32) (j : Fin 1024) (o : Fin 512) :
    matmul dot_S1024x512_S512x512_S1024x512_1_0_0_1_n_n none a b (constant (F := Ideal) S1024x512 .f32 0x00000000#32) (ix2 j o)
      = ∑ h : Fin 512, a (ix2 j h) * b (ix2 h o) := Cert.Hand.matmul_ix2 _ rfl rfl rfl rfl rfl rfl a b j o

/-- The mask tile times the activated tile: the sum over the tile's 1024 rows. -/
theorem mg_apply (a : FVec Ideal S1x1024 .f32) (b : FVec Ideal S1024x512 .f32) (o : Fin 512) :
    matmul dot_S1x1024_S1024x512_S1x512_1_0_0_1_n_n none a b (constant (F := Ideal) S1x512 .f32 0x00000000#32) (ix2 (0 : Fin 1) o)
      = ∑ j : Fin 1024, a (ix2 (0 : Fin 1) j) * b (ix2 j o) := Cert.Hand.matmul_ix2 _ rfl rfl rfl rfl rfl rfl a b 0 o

theorem pool_pay1_apply (o : Fin 512) : (k0_pay1 (F := Ideal)) (ix2 (0 : Fin 1) o) = 0 := by
  unfold k0_pay1
  rw [broadcast_apply]
  exact Ideal.ofBits_zero_f32

theorem pool_pay2_apply (x : Vec Ideal S1024x512 .f32) (wg : Vec Ideal S512x512 .f32) (bg : Vec Ideal S1x512 .f32)
    (mk : Vec Ideal S1x1024 .f32) (prev : Vec Ideal S1x512 .f32) (o : Fin 512) :
    k0_pay2 x wg bg mk prev (ix2 (0 : Fin 1) o)
      = prev (ix2 (0 : Fin 1) o)
        + ∑ j : Fin 1024, mk (ix2 (0 : Fin 1) j) * max ((∑ h : Fin 512, x (ix2 j h) * wg (ix2 h o)) + bg (ix2 (0 : Fin 1) o)) 0 := by
  unfold k0_pay2
  simp only [shapeCast_self]
  rw [addf_apply, mg_apply]
  refine congrArg (prev (ix2 (0 : Fin 1) o) + ·) (Finset.sum_congr rfl fun j _ => ?_)
  rw [maximumf_apply, addf_apply, xw_apply, broadcastTo_1b_ab_apply, broadcast_apply, Ideal.ofBits_def, Ideal.ofBits_zero_f32]

theorem pay3_apply (s : Vec Ideal S1x512 .f32) (n : Vec Ideal S1x1 .f32) (o : Fin 512) :
    k0_pay3 s n (ix2 (0 : Fin 1) o) = Ideal.div (s (ix2 (0 : Fin 1) o)) (n (ix2 (0 : Fin 1) (0 : Fin 1))) := by
  unfold k0_pay3
  simp only [shapeCast_self]
  rw [divf_apply, broadcast_apply]
  unfold extractAt
  refine congrArg (Ideal.div _) (congrArg n ?_)
  funext a
  match a with
  | ⟨0, _⟩ => rfl
  | ⟨1, _⟩ => rfl

variable (V : (c : Dev nD) → (b : Ref sig .tc) → Buf (Elt Ideal) ((c : Thread nD τ).loc b))

theorem idx_facts0 : ∀ t : Fin cfg0.N,
    win0_0.index t (0 : Fin 2) = t.val ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem pool_blk_x (c : Dev nD) (t : Fin cfg0.N) (j : Fin 1024) (h : Fin 512) (r : Fin 8192) (hr : r.val = 1024 * t.val + j.val) :
    (iblk0 V c 0 t : Vec Ideal S1024x512 .f32) (ix2 j h) = (V c main_v0 : Vec Ideal S8192x512 .f32) (ix2 r h) := by
  obtain ⟨e0, e1, -⟩ := idx_facts0 t
  refine congrArg (V c main_v0) (funext fun a => Fin.ext ?_)
  match a with
  | ⟨0, _⟩ => show win0_0.index t (0 : Fin 2) * 1024 + 1 * j.val = r.val; rw [e0, hr]; omega
  | ⟨1, _⟩ => show win0_0.index t (1 : Fin 2) * 512 + 1 * h.val = h.val; rw [e1]; omega

theorem blk_mask (c : Dev nD) (t : Fin cfg0.N) (j : Fin 1024) (r : Fin 8192) (hr : r.val = 1024 * t.val + j.val) :
    (iblk0 V c 1 t : Vec Ideal S1x1024 .f32) (ix2 (0 : Fin 1) j) = (V c main_v1 : Vec Ideal S1x8192 .f32) (ix2 (0 : Fin 1) r) := by
  obtain ⟨-, -, e0, e1, -⟩ := idx_facts0 t
  refine congrArg (V c main_v1) (funext fun a => Fin.ext ?_)
  match a with
  | ⟨0, _⟩ => show win0_1.index t (0 : Fin 2) * 1 + 1 * (0 : Fin 1).val = (0 : Fin 1).val; rw [e0]; rfl
  | ⟨1, _⟩ => show win0_1.index t (1 : Fin 2) * 1024 + 1 * j.val = r.val; rw [e1, hr]; omega

theorem blk_wg (c : Dev nD) (t : Fin cfg0.N) (h o : Fin 512) :
    (iblk0 V c 2 t : Vec Ideal S512x512 .f32) (ix2 h o) = (V c main_v4 : Vec Ideal S512x512 .f32) (ix2 h o) := by
  obtain ⟨-, -, -, -, e0, e1, -⟩ := idx_facts0 t
  refine congrArg (V c main_v4) (funext fun a => Fin.ext ?_)
  match a with
  | ⟨0, _⟩ => show win0_2.index t (0 : Fin 2) * 512 + 1 * h.val = h.val; rw [e0]; omega
  | ⟨1, _⟩ => show win0_2.index t (1 : Fin 2) * 512 + 1 * o.val = o.val; rw [e1]; omega

theorem blk_bg (c : Dev nD) (t : Fin cfg0.N) (o : Fin 512) :
    (iblk0 V c 3 t : Vec Ideal S1x512 .f32) (ix2 (0 : Fin 1) o) = (V c main_v5 : Vec Ideal S1x512 .f32) (ix2 (0 : Fin 1) o) := by
  obtain ⟨-, -, -, -, -, -, e0, e1, -⟩ := idx_facts0 t
  refine congrArg (V c main_v5) (funext fun a => Fin.ext ?_)
  match a with
  | ⟨0, _⟩ => show win0_3.index t (0 : Fin 2) * 1 + 1 * (0 : Fin 1).val = (0 : Fin 1).val; rw [e0]; rfl
  | ⟨1, _⟩ => show win0_3.index t (1 : Fin 2) * 512 + 1 * o.val = o.val; rw [e1]; omega

theorem blk_n (c : Dev nD) (t : Fin cfg0.N) :
    (iblk0 V c 4 t : Vec Ideal S1x1 .f32) (ix2 (0 : Fin 1) (0 : Fin 1)) = (V c main_v3 : Vec Ideal S1x1 .f32) (ix2 (0 : Fin 1) (0 : Fin 1)) := by
  obtain ⟨-, -, -, -, -, -, -, -, e0, e1, -⟩ := idx_facts0 t
  refine congrArg (V c main_v3) (funext fun a => Fin.ext ?_)
  match a with
  | ⟨0, _⟩ => show win0_4.index t (0 : Fin 2) * 1 + 1 * (0 : Fin 1).val = (0 : Fin 1).val; rw [e0]; rfl
  | ⟨1, _⟩ => show win0_4.index t (1 : Fin 2) * 1 + 1 * (0 : Fin 1).val = (0 : Fin 1).val; rw [e1]; rfl

theorem last_lt : 7 < cfg0.N := by rw [show cfg0.N = 8 from N_0]; decide

theorem flushed_out (c : Dev nD) (t : Fin cfg0.N) (hf : (cfg0.win 5).flush t = true) :
    (dat0 V c).flushed 5 t = ((cfg0.win 5).blk t).view.read (Elt Ideal) (acc0 V c 7 last_lt) := by
  have hN : cfg0.N = 8 := N_0
  have h7 : t.val = 7 := by have := (flush0_5 t).mp hf; have := t.isLt; omega
  obtain rfl : t = ⟨7, last_lt⟩ := Fin.ext h7
  obtain ⟨-, -, -, -, -, -, -, -, -, -, e0, e1⟩ := idx_facts0 ⟨7, last_lt⟩
  show (cfg0.win 5).cut (grid0.coords ⟨7, last_lt⟩) ((dat0 V c).after 5 ⟨7, last_lt⟩) = _
  rw [after0_5]
  funext y
  rw [View.read_apply]
  show acc0 V c 7 last_lt y = acc0 V c 7 last_lt (((cfg0.win 5).blk ⟨7, last_lt⟩).view.emb y)
  refine congrArg _ (funext fun a => Fin.ext ?_)
  match a with
  | ⟨0, _⟩ => show (y 0).val = win0_5.index ⟨7, last_lt⟩ (0 : Fin 2) * 1 + 1 * (y 0).val; rw [e0]; omega
  | ⟨1, _⟩ => show (y 1).val = win0_5.index ⟨7, last_lt⟩ (1 : Fin 2) * 512 + 1 * (y 1).val; rw [e1]; omega

theorem mem_out (i : S1x512.Idx) : i ∈ ((cfg0.win 5).blk ⟨7, last_lt⟩).view.set := by
  obtain ⟨-, -, -, -, -, -, -, -, -, -, e0, e1⟩ := idx_facts0 ⟨7, last_lt⟩
  show i ∈ ((View.whole main_v6).slice (win0_5.rect ⟨7, last_lt⟩)).set
  rw [View.set_slice_whole, Rect.mem_set_unit]
  intro a
  have h0 : (i 0).val < 1 := (i 0).isLt
  have h1 : (i 1).val < 512 := (i 1).isLt
  match a with
  | ⟨0, _⟩ => show win0_5.index ⟨7, last_lt⟩ (0 : Fin 2) * 1 ≤ (i 0).val ∧ (i 0).val < win0_5.index ⟨7, last_lt⟩ (0 : Fin 2) * 1 + 1; rw [e0]; omega
  | ⟨1, _⟩ => show win0_5.index ⟨7, last_lt⟩ (1 : Fin 2) * 512 ≤ (i 1).val ∧ (i 1).val < win0_5.index ⟨7, last_lt⟩ (1 : Fin 2) * 512 + 512; rw [e1]; omega

theorem final_out (c : Dev nD) : (dat0 V c).arrAt 5 cfg0.N = acc0 V c 7 last_lt :=
  (dat0 V c).arrAt_eq_of_cover 5 (acc0 V c 7 last_lt) (flushed_out V c) fun i =>
    ⟨⟨7, last_lt⟩, (flush0_5 ⟨7, last_lt⟩).mpr rfl, mem_out i⟩

def rowTerm (xf : Fin 8192 → Fin 512 → EReal) (mask : Fin 8192 → EReal) (wgT : Fin 512 → Fin 512 → EReal)
    (bg : Fin 512 → EReal) (o : Fin 512) (r : Fin 8192) : EReal :=
  mask r * max ((∑ h : Fin 512, xf r h * wgT h o) + bg o) 0

theorem rowTerm_of_eq (xf : Fin 8192 → Fin 512 → EReal) (mask : Fin 8192 → EReal) (wgT : Fin 512 → Fin 512 → EReal)
    (bg : Fin 512 → EReal) (o : Fin 512) (r : Fin 8192) (m b : EReal) (p q : Fin 512 → EReal)
    (hm : m = mask r) (hb : b = bg o) (hp : ∀ h, p h = xf r h) (hq : ∀ h, q h = wgT h o) :
    m * max ((∑ h : Fin 512, p h * q h) + b) 0 = rowTerm xf mask wgT bg o r := by
  unfold rowTerm
  rw [hm, hb]
  exact congrArg (fun z => mask r * max (z + bg o) 0) (Finset.sum_congr rfl fun h _ => by rw [hp h, hq h])

def term (c : Dev nD) (o : Fin 512) : Fin 8192 → EReal :=
  rowTerm (fun r h => (V c main_v0 : Vec Ideal S8192x512 .f32) (ix2 r h))
    (fun r => (V c main_v1 : Vec Ideal S1x8192 .f32) (ix2 (0 : Fin 1) r))
    (fun h o => (V c main_v4 : Vec Ideal S512x512 .f32) (ix2 h o))
    (fun o => (V c main_v5 : Vec Ideal S1x512 .f32) (ix2 (0 : Fin 1) o)) o

theorem step_apply (c : Dev nD) (o : Fin 512) (n : ℕ) (hn : n < cfg0.N) (prev : Vec Ideal S1x512 .f32) :
    k0_pay2 (iblk0 V c 0 ⟨n, hn⟩) (iblk0 V c 2 ⟨n, hn⟩) (iblk0 V c 3 ⟨n, hn⟩) (iblk0 V c 1 ⟨n, hn⟩) prev (ix2 (0 : Fin 1) o)
      = prev (ix2 (0 : Fin 1) o) + Cert.PoolSums.tileSum (term V c o) n := by
  have h8 : n < 8 := by have hN : cfg0.N = 8 := N_0; omega
  refine (pool_pay2_apply _ _ _ _ _ o).trans ?_
  rw [Cert.PoolSums.tileSum_of_lt _ n h8]
  refine congrArg (prev (ix2 (0 : Fin 1) o) + ·) (Finset.sum_congr rfl fun j _ => ?_)
  exact rowTerm_of_eq _ _ _ _ o (Cert.LayerSums.tileIdx ⟨n, h8⟩ j) _ _ _ _
    (blk_mask V c ⟨n, hn⟩ j _ rfl) (blk_bg V c ⟨n, hn⟩ o)
    (fun h => pool_blk_x V c ⟨n, hn⟩ j h _ rfl) (fun h => blk_wg V c ⟨n, hn⟩ h o)

theorem acc_apply (c : Dev nD) (o : Fin 512) : ∀ (n : ℕ) (hn : n < cfg0.N), n < 7 →
    acc0 V c n hn (ix2 (0 : Fin 1) o) = ∑ i ∈ Finset.range (n + 1), Cert.PoolSums.tileSum (term V c o) i
  | 0, hn, _ => by
    rw [acc0, step_apply, pool_pay1_apply, zero_add, Finset.sum_range_one]
  | n + 1, hn, h7 => by
    rw [acc0, if_neg (show ¬(n + 1) % 8 = 7 by omega), step_apply,
      acc_apply c o n (Nat.lt_of_succ_lt hn) (by omega), Finset.sum_range_succ _ (n + 1)]

theorem acc_div (c : Dev nD) (o : Fin 512) (n : ℕ) (hn : n + 1 < cfg0.N) (hl : (n + 1) % 8 = 7) (h7 : n < 7) :
    acc0 V c (n + 1) hn (ix2 (0 : Fin 1) o)
      = Ideal.div (∑ i ∈ Finset.range (n + 1 + 1), Cert.PoolSums.tileSum (term V c o) i)
          ((V c main_v3 : Vec Ideal S1x1 .f32) (ix2 (0 : Fin 1) (0 : Fin 1))) := by
  rw [acc0, if_pos hl, pay3_apply, step_apply, acc_apply V c o n (Nat.lt_of_succ_lt hn) h7,
    ← Finset.sum_range_succ _ (n + 1), blk_n]

theorem acc_last (c : Dev nD) (o : Fin 512) :
    acc0 V c 7 last_lt (ix2 (0 : Fin 1) o)
      = Ideal.div (∑ r : Fin 8192, term V c o r) ((V c main_v3 : Vec Ideal S1x1 .f32) (ix2 (0 : Fin 1) (0 : Fin 1))) :=
  (acc_div V c o 6 last_lt (by decide) (by decide)).trans
    (congrArg (Ideal.div · _) (Cert.PoolSums.sum_range_tileSum (term V c o)))

theorem pool_value (c : Dev nD) (o : Fin 512) :
    ((dat0 V c).arrAt 5 cfg0.N : Vec Ideal S1x512 .f32) (ix2 (0 : Fin 1) o)
      = Cert.Spec.pool (fun r h => (V c main_v0 : Vec Ideal S8192x512 .f32) (ix2 r h))
          (fun r => (V c main_v1 : Vec Ideal S1x8192 .f32) (ix2 (0 : Fin 1) r))
          (fun o h => (V c main_v4 : Vec Ideal S512x512 .f32) (ix2 h o))
          (fun o => (V c main_v5 : Vec Ideal S1x512 .f32) (ix2 (0 : Fin 1) o))
          ((V c main_v3 : Vec Ideal S1x1 .f32) (ix2 (0 : Fin 1) (0 : Fin 1))) o := by
  rw [final_out V c]
  exact acc_last V c o

end Cert.KernelIdeal.IdealValue

end
-- ==== Proof.LayerTiles.lean ====
/- The layer call's payloads and input blocks, read at one entry. -/
import proofs.«125986_j72834055406175_1_alg».proof.Proof.LayerData
import proofs.«125986_j72834055406175_1_alg».proof.Proof.LibBody
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.IdealValue

open Cert.KernelIdeal Cert.KernelIdeal.Gen Cert.KernelIdeal.Hand
open Idealize.ShloMosaic Idealize.ShloMosaic.TcCoe Idealize.SL.Sem
open Idealize.ShloMosaic.Pipeline (Dat)
open ValueIdx

/-- An adjacency tile times a row tile of xf into the zero tile: the sum over the tile's 1024 columns. -/
theorem matmul_acc_apply (a : FVec Ideal S1024x1024 .bf16) (x : FVec Ideal S1024x512 .bf16) (p : Fin 1024) (h : Fin 512) :
    matmul dot_S1024x1024_S1024x512_S1024x512_1_0_0_1_n_n none a x (constant (F := Ideal) S1024x512 .f32 0x00000000#32) (ix2 p h)
      = ∑ j : Fin 1024, a (ix2 p j) * x (ix2 j h) := Cert.Hand.matmul_ix2 _ rfl rfl rfl rfl rfl rfl a x p h

/-- A row tile times a transposed weight matrix: the sum over the 512 features. -/
theorem matmul_lin_apply (a : FVec Ideal S1024x512 .f32) (x : FVec Ideal S512x512 .f32) (p : Fin 1024) (h : Fin 512) :
    matmul dot_S1024x512_S512x512_S1024x512_1_0_0_1_n_n none a x (constant (F := Ideal) S1024x512 .f32 0x00000000#32) (ix2 p h)
      = ∑ j : Fin 512, a (ix2 p j) * x (ix2 j h) := Cert.Hand.matmul_ix2 _ rfl rfl rfl rfl rfl rfl a x p h

theorem matmul_row_apply (a : FVec Ideal S1x512 .f32) (x : FVec Ideal S512x512 .f32) (p : Fin 1) (h : Fin 512) :
    matmul dot_S1x512_S512x512_S1x512_1_0_0_1_n_n none a x (constant (F := Ideal) S1x512 .f32 0x00000000#32) (ix2 p h)
      = ∑ j : Fin 512, a (ix2 p j) * x (ix2 j h) := Cert.Hand.matmul_ix2 _ rfl rfl rfl rfl rfl rfl a x p h

theorem pay1_apply (p : Fin 1024) (h : Fin 512) : (k1_pay1 (F := Ideal)) (ix2 p h) = 0 := by
  unfold k1_pay1
  simp only [shapeCast_self]
  exact Ideal.ofBits_zero_f32

theorem pay2_apply (p : Fin 1024) (h : Fin 512) : (k1_pay2 (F := Ideal)) (ix2 p h) = 0 := by
  unfold k1_pay2
  simp only [shapeCast_self]
  exact Ideal.ofBits_zero_f32

theorem pay4_apply (a : Vec Ideal S1024x1024 .f32) (x prev : Vec Ideal S1024x512 .f32) (p : Fin 1024) (h : Fin 512) :
    k1_pay4 a x prev (ix2 p h) = prev (ix2 p h) + ∑ j : Fin 1024, a (ix2 p j) * x (ix2 j h) := by
  unfold k1_pay4 k1_pay3
  simp only [shapeCast_self]
  rw [addf_apply, matmul_acc_apply]
  simp only [truncf_apply]

theorem pay5_apply (a : Vec Ideal S1024x1024 .f32) (x prev : Vec Ideal S1024x512 .f32) (p : Fin 1024) (h : Fin 512) :
    k1_pay5 a x prev (ix2 p h) = prev (ix2 p h) + ∑ j : Fin 1024, a (ix2 p j) * x (ix2 j h) := by
  unfold k1_pay5 k1_pay3
  simp only [shapeCast_self]
  rw [addf_apply, matmul_acc_apply]
  simp only [truncf_apply]

theorem pay7_apply (xm : Vec Ideal S1024x512 .f32) (wT : Vec Ideal S512x512 .f32) (b : Vec Ideal S1x512 .f32)
    (ud : Vec Ideal S1024x512 .f32) (wudT : Vec Ideal S512x512 .f32) (bud : Vec Ideal S1x512 .f32)
    (lr : Vec Ideal S1024x512 .f32) (wlrT : Vec Ideal S512x512 .f32) (blr : Vec Ideal S1x512 .f32) (p : Fin 1024) (o : Fin 512) :
    k1_pay7 xm wT b ud wudT bud lr wlrT blr (ix2 p o)
      = ((∑ h : Fin 512, xm (ix2 p h) * wT (ix2 h o) + b (ix2 (0 : Fin 1) o))
          + (∑ h : Fin 512, ud (ix2 p h) * wudT (ix2 h o) + bud (ix2 (0 : Fin 1) o)))
        + (∑ h : Fin 512, lr (ix2 p h) * wlrT (ix2 h o) + blr (ix2 (0 : Fin 1) o)) := by
  unfold k1_pay7
  simp only [shapeCast_self]
  rw [addf_apply, addf_apply, addf_apply, addf_apply, addf_apply, matmul_lin_apply, matmul_lin_apply, matmul_lin_apply,
    broadcastTo_1b_ab_apply, broadcastTo_1b_ab_apply, broadcastTo_1b_ab_apply]

theorem pay8_apply (hg : Vec Ideal S1x512 .f32) (wgoT : Vec Ideal S512x512 .f32) (o : Fin 512) :
    k1_pay8 hg wgoT (ix2 (0 : Fin 1) o) = ∑ p : Fin 512, hg (ix2 (0 : Fin 1) p) * wgoT (ix2 p o) := by
  unfold k1_pay8
  simp only [shapeCast_self]
  rw [matmul_row_apply]

theorem pay6_apply (v51 : FVec Ideal S1024x512 .f32) (v56 : FVec Ideal S1x512 .f32) (bgo : Vec Ideal S1x512 .f32) (p : Fin 1024) (o : Fin 512) :
    k1_pay6 v51 v56 bgo (ix2 p o) = max (v51 (ix2 p o) + (v56 (ix2 (0 : Fin 1) o) + bgo (ix2 (0 : Fin 1) o))) 0 := by
  unfold k1_pay6
  simp only [shapeCast_self]
  rw [maximumf_apply, addf_apply, broadcastTo_1b_ab_apply, addf_apply, broadcast_apply]
  exact congrArg _ Ideal.ofBits_zero_f32

variable (V : (c : Dev nD) → (b : Ref sig .tc) → Buf (Elt Ideal) ((c : Thread nD τ).loc b))

theorem idx_tiled1 : ∀ t : Fin cfg1.N,
    win1_0.index t (0 : Fin 2) = t.val / 8 ∧ win1_0.index t (1 : Fin 2) = t.val % 8
    ∧ win1_1.index t (0 : Fin 2) = t.val / 8 ∧ win1_1.index t (1 : Fin 2) = t.val % 8
    ∧ win1_2.index t (0 : Fin 2) = t.val % 8 ∧ win1_2.index t (1 : Fin 2) = 0
    ∧ win1_3.index t (0 : Fin 2) = t.val / 8 ∧ win1_3.index t (1 : Fin 2) = 0
    ∧ win1_13.index t (0 : Fin 2) = t.val / 8 ∧ win1_13.index t (1 : Fin 2) = 0 :=
  (by decide +kernel : ∀ t : Fin grid1.N, _)

theorem idx_whole1 : ∀ t : Fin cfg1.N,
    win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0
    ∧ win1_11.index t (0 : Fin 2) = 0 ∧ win1_11.index t (1 : Fin 2) = 0
    ∧ win1_12.index t (0 : Fin 2) = 0 ∧ win1_12.index t (1 : Fin 2) = 0 :=
  (by decide +kernel : ∀ t : Fin grid1.N, _)

theorem iblk1_0_apply (c : Dev nD) (t : Fin cfg1.N) (p j : Fin 1024) (R C : Fin 8192)
    (hR : R.val = 1024 * (t.val / 8) + p.val) (hC : C.val = 1024 * (t.val % 8) + j.val) :
    (iblk1 V c 0 t : Vec Ideal S1024x1024 .f32) (ix2 p j) = (V c main_arg2 : Vec Ideal S8192x8192 .f32) (ix2 R C) := by
  obtain ⟨e0, e1, -⟩ := idx_tiled1 t
  refine congrArg (V c main_arg2) (funext fun d => Fin.ext ?_)
  match d with
  | ⟨0, _⟩ => show win1_0.index t (0 : Fin 2) * 1024 + 1 * p.val = R.val; rw [e0, hR]; omega
  | ⟨1, _⟩ => show win1_0.index t (1 : Fin 2) * 1024 + 1 * j.val = C.val; rw [e1, hC]; omega

theorem iblk1_1_apply (c : Dev nD) (t : Fin cfg1.N) (p j : Fin 1024) (R C : Fin 8192)
    (hR : R.val = 1024 * (t.val / 8) + p.val) (hC : C.val = 1024 * (t.val % 8) + j.val) :
    (iblk1 V c 1 t : Vec Ideal S1024x1024 .f32) (ix2 p j) = (V c main_arg3 : Vec Ideal S8192x8192 .f32) (ix2 R C) := by
  obtain ⟨-, -, e0, e1, -⟩ := idx_tiled1 t
  refine congrArg (V c main_arg3) (funext fun d => Fin.ext ?_)
  match d with
  | ⟨0, _⟩ => show win1_1.index t (0 : Fin 2) * 1024 + 1 * p.val = R.val; rw [e0, hR]; omega
  | ⟨1, _⟩ => show win1_1.index t (1 : Fin 2) * 1024 + 1 * j.val = C.val; rw [e1, hC]; omega

theorem iblk1_2_apply (c : Dev nD) (t : Fin cfg1.N) (j : Fin 1024) (h : Fin 512) (R : Fin 8192)
    (hR : R.val = 1024 * (t.val % 8) + j.val) :
    (iblk1 V c 2 t : Vec Ideal S1024x512 .f32) (ix2 j h) = (V c main_v0 : Vec Ideal S8192x512 .f32) (ix2 R h) := by
  obtain ⟨-, -, -, -, e0, e1, -⟩ := idx_tiled1 t
  refine congrArg (V c main_v0) (funext fun d => Fin.ext ?_)
  match d with
  | ⟨0, _⟩ => show win1_2.index t (0 : Fin 2) * 1024 + 1 * j.val = R.val; rw [e0, hR]; omega
  | ⟨1, _⟩ => show win1_2.index t (1 : Fin 2) * 512 + 1 * h.val = h.val; rw [e1]; omega

theorem iblk1_3_apply (c : Dev nD) (t : Fin cfg1.N) (p : Fin 1024) (h : Fin 512) (R : Fin 8192)
    (hR : R.val = 1024 * (t.val / 8) + p.val) :
    (iblk1 V c 3 t : Vec Ideal S1024x512 .f32) (ix2 p h) = (V c main_v0 : Vec Ideal S8192x512 .f32) (ix2 R h) := by
  obtain ⟨-, -, -, -, -, -, e0, e1, -⟩ := idx_tiled1 t
  refine congrArg (V c main_v0) (funext fun d => Fin.ext ?_)
  match d with
  | ⟨0, _⟩ => show win1_3.index t (0 : Fin 2) * 1024 + 1 * p.val = R.val; rw [e0, hR]; omega
  | ⟨1, _⟩ => show win1_3.index t (1 : Fin 2) * 512 + 1 * h.val = h.val; rw [e1]; omega

theorem iblk1_4_apply (c : Dev nD) (t : Fin cfg1.N) (a : Fin 512) (b : Fin 512) :
    (iblk1 V c 4 t : Vec Ideal S512x512 .f32) (ix2 a b) = (V c main_v7 : Vec Ideal S512x512 .f32) (ix2 a b) := by
  have e0 := (idx_whole1 t).1
  have e1 := (idx_whole1 t).2.1
  refine congrArg (V c main_v7) (funext fun d => Fin.ext ?_)
  match d with
  | ⟨0, _⟩ => show win1_4.index t (0 : Fin 2) * 512 + 1 * a.val = a.val; rw [e0]; omega
  | ⟨1, _⟩ => show win1_4.index t (1 : Fin 2) * 512 + 1 * b.val = b.val; rw [e1]; omega

theorem iblk1_5_apply (c : Dev nD) (t : Fin cfg1.N) (a : Fin 1) (b : Fin 512) :
    (iblk1 V c 5 t : Vec Ideal S1x512 .f32) (ix2 a b) = (V c main_v11 : Vec Ideal S1x512 .f32) (ix2 a b) := by
  have e0 := (idx_whole1 t).2.2.1
  have e1 := (idx_whole1 t).2.2.2.1
  refine congrArg (V c main_v11) (funext fun d => Fin.ext ?_)
  match d with
  | ⟨0, _⟩ => show win1_5.index t (0 : Fin 2) * 1 + 1 * a.val = a.val; rw [e0]; omega
  | ⟨1, _⟩ => show win1_5.index t (1 : Fin 2) * 512 + 1 * b.val = b.val; rw [e1]; omega

theorem iblk1_6_apply (c : Dev nD) (t : Fin cfg1.N) (a : Fin 512) (b : Fin 512) :
    (iblk1 V c 6 t : Vec Ideal S512x512 .f32) (ix2 a b) = (V c main_v8 : Vec Ideal S512x512 .f32) (ix2 a b) := by
  have e0 := (idx_whole1 t).2.2.2.2.1
  have e1 := (idx_whole1 t).2.2.2.2.2.1
  refine congrArg (V c main_v8) (funext fun d => Fin.ext ?_)
  match d with
  | ⟨0, _⟩ => show win1_6.index t (0 : Fin 2) * 512 + 1 * a.val = a.val; rw [e0]; omega
  | ⟨1, _⟩ => show win1_6.index t (1 : Fin 2) * 512 + 1 * b.val = b.val; rw [e1]; omega

theorem iblk1_7_apply (c : Dev nD) (t : Fin cfg1.N) (a : Fin 1) (b : Fin 512) :
    (iblk1 V c 7 t : Vec Ideal S1x512 .f32) (ix2 a b) = (V c main_v12 : Vec Ideal S1x512 .f32) (ix2 a b) := by
  have e0 := (idx_whole1 t).2.2.2.2.2.2.1
  have e1 := (idx_whole1 t).2.2.2.2.2.2.2.1
  refine congrArg (V c main_v12) (funext fun d => Fin.ext ?_)
  match d with
  | ⟨0, _⟩ => show win1_7.index t (0 : Fin 2) * 1 + 1 * a.val = a.val; rw [e0]; omega
  | ⟨1, _⟩ => show win1_7.index t (1 : Fin 2) * 512 + 1 * b.val = b.val; rw [e1]; omega

theorem iblk1_8_apply (c : Dev nD) (t : Fin cfg1.N) (a : Fin 512) (b : Fin 512) :
    (iblk1 V c 8 t : Vec Ideal S512x512 .f32) (ix2 a b) = (V c main_v9 : Vec Ideal S512x512 .f32) (ix2 a b) := by
  have e0 := (idx_whole1 t).2.2.2.2.2.2.2.2.1
  have e1 := (idx_whole1 t).2.2.2.2.2.2.2.2.2.1
  refine congrArg (V c main_v9) (funext fun d => Fin.ext ?_)
  match d with
  | ⟨0, _⟩ => show win1_8.index t (0 : Fin 2) * 512 + 1 * a.val = a.val; rw [e0]; omega
  | ⟨1, _⟩ => show win1_8.index t (1 : Fin 2) * 512 + 1 * b.val = b.val; rw [e1]; omega

theorem iblk1_9_apply (c : Dev nD) (t : Fin cfg1.N) (a : Fin 1) (b : Fin 512) :
    (iblk1 V c 9 t : Vec Ideal S1x512 .f32) (ix2 a b) = (V c main_v13 : Vec Ideal S1x512 .f32) (ix2 a b) := by
  have e0 := (idx_whole1 t).2.2.2.2.2.2.2.2.2.2.1
  have e1 := (idx_whole1 t).2.2.2.2.2.2.2.2.2.2.2.1
  refine congrArg (V c main_v13) (funext fun d => Fin.ext ?_)
  match d with
  | ⟨0, _⟩ => show win1_9.index t (0 : Fin 2) * 1 + 1 * a.val = a.val; rw [e0]; omega
  | ⟨1, _⟩ => show win1_9.index t (1 : Fin 2) * 512 + 1 * b.val = b.val; rw [e1]; omega

theorem iblk1_10_apply (c : Dev nD) (t : Fin cfg1.N) (a : Fin 1) (b : Fin 512) :
    (iblk1 V c 10 t : Vec Ideal S1x512 .f32) (ix2 a b) = (V c main_v6 : Vec Ideal S1x512 .f32) (ix2 a b) := by
  have e0 := (idx_whole1 t).2.2.2.2.2.2.2.2.2.2.2.2.1
  have e1 := (idx_whole1 t).2.2.2.2.2.2.2.2.2.2.2.2.2.1
  refine congrArg (V c main_v6) (funext fun d => Fin.ext ?_)
  match d with
  | ⟨0, _⟩ => show win1_10.index t (0 : Fin 2) * 1 + 1 * a.val = a.val; rw [e0]; omega
  | ⟨1, _⟩ => show win1_10.index t (1 : Fin 2) * 512 + 1 * b.val = b.val; rw [e1]; omega

theorem iblk1_11_apply (c : Dev nD) (t : Fin cfg1.N) (a : Fin 512) (b : Fin 512) :
    (iblk1 V c 11 t : Vec Ideal S512x512 .f32) (ix2 a b) = (V c main_v10 : Vec Ideal S512x512 .f32) (ix2 a b) := by
  have e0 := (idx_whole1 t).2.2.2.2.2.2.2.2.2.2.2.2.2.2.1
  have e1 := (idx_whole1 t).2.2.2.2.2.2.2.2.2.2.2.2.2.2.2.1
  refine congrArg (V c main_v10) (funext fun d => Fin.ext ?_)
  match d with
  | ⟨0, _⟩ => show win1_11.index t (0 : Fin 2) * 512 + 1 * a.val = a.val; rw [e0]; omega
  | ⟨1, _⟩ => show win1_11.index t (1 : Fin 2) * 512 + 1 * b.val = b.val; rw [e1]; omega

theorem iblk1_12_apply (c : Dev nD) (t : Fin cfg1.N) (a : Fin 1) (b : Fin 512) :
    (iblk1 V c 12 t : Vec Ideal S1x512 .f32) (ix2 a b) = (V c main_v14 : Vec Ideal S1x512 .f32) (ix2 a b) := by
  have e0 := (idx_whole1 t).2.2.2.2.2.2.2.2.2.2.2.2.2.2.2.2.1
  have e1 := (idx_whole1 t).2.2.2.2.2.2.2.2.2.2.2.2.2.2.2.2.2
  refine congrArg (V c main_v14) (funext fun d => Fin.ext ?_)
  match d with
  | ⟨0, _⟩ => show win1_12.index t (0 : Fin 2) * 1 + 1 * a.val = a.val; rw [e0]; omega
  | ⟨1, _⟩ => show win1_12.index t (1 : Fin 2) * 512 + 1 * b.val = b.val; rw [e1]; omega

end Cert.KernelIdeal.IdealValue

end
-- ==== Proof.LayerValue.lean ====
/- After the 64 grid points the layer call's output array is Spec.layer of the arrays it was entered with. -/
import proofs.«125986_j72834055406175_1_alg».proof.Proof.LayerData
import proofs.«125986_j72834055406175_1_alg».proof.Proof.LayerTiles
import proofs.«125986_j72834055406175_1_alg».proof.Proof.LayerSums
import proofs.«125986_j72834055406175_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.IdealValue

open Cert.KernelIdeal Cert.KernelIdeal.Gen Cert.KernelIdeal.Hand
open Idealize.ShloMosaic Idealize.ShloMosaic.TcCoe Idealize.SL.Sem
open Idealize.ShloMosaic.Pipeline (Dat)
open ValueIdx
open Cert.LayerSums (tileIdx upTo upTo_zero upTo_succ upTo_seven sum_tiles)

abbrev part (a : Vec Ideal S8192x8192 .f32) (xf : Vec Ideal S8192x512 .f32) (i : Fin 8) (p : Fin 1024) (h : Fin 512) (k : Fin 8) : EReal :=
  ∑ j : Fin 1024, a (ix2 (tileIdx i p) (tileIdx k j)) * xf (ix2 (tileIdx k j) h)

abbrev nbrAt (a : Vec Ideal S8192x8192 .f32) (xf : Vec Ideal S8192x512 .f32) (R : Fin 8192) (h : Fin 512) : EReal :=
  ∑ r : Fin 8192, a (ix2 R r) * xf (ix2 r h)

theorem part_of_blocks (A : Vec Ideal S8192x8192 .f32) (X : Vec Ideal S8192x512 .f32) (a : Vec Ideal S1024x1024 .f32) (x : Vec Ideal S1024x512 .f32)
    (i k : Fin 8) (p : Fin 1024) (h : Fin 512) (ha : ∀ j : Fin 1024, a (ix2 p j) = A (ix2 (tileIdx i p) (tileIdx k j)))
    (hx : ∀ j : Fin 1024, x (ix2 j h) = X (ix2 (tileIdx k j) h)) :
    ∑ j : Fin 1024, a (ix2 p j) * x (ix2 j h) = part A X i p h k :=
  Finset.sum_congr rfl fun j _ => by rw [ha, hx]

theorem pay4_part (A : Vec Ideal S8192x8192 .f32) (X : Vec Ideal S8192x512 .f32) (a : Vec Ideal S1024x1024 .f32) (x prev : Vec Ideal S1024x512 .f32)
    (i k : Fin 8) (p : Fin 1024) (h : Fin 512) (ha : ∀ j : Fin 1024, a (ix2 p j) = A (ix2 (tileIdx i p) (tileIdx k j)))
    (hx : ∀ j : Fin 1024, x (ix2 j h) = X (ix2 (tileIdx k j) h)) :
    k1_pay4 a x prev (ix2 p h) = prev (ix2 p h) + part A X i p h k := by
  rw [pay4_apply, part_of_blocks A X a x i k p h ha hx]

theorem pay5_part (A : Vec Ideal S8192x8192 .f32) (X : Vec Ideal S8192x512 .f32) (a : Vec Ideal S1024x1024 .f32) (x prev : Vec Ideal S1024x512 .f32)
    (i k : Fin 8) (p : Fin 1024) (h : Fin 512) (ha : ∀ j : Fin 1024, a (ix2 p j) = A (ix2 (tileIdx i p) (tileIdx k j)))
    (hx : ∀ j : Fin 1024, x (ix2 j h) = X (ix2 (tileIdx k j) h)) :
    k1_pay5 a x prev (ix2 p h) = prev (ix2 p h) + part A X i p h k := by
  rw [pay5_apply, part_of_blocks A X a x i k p h ha hx]

theorem upTo_part_seven (a : Vec Ideal S8192x8192 .f32) (xf : Vec Ideal S8192x512 .f32) (i : Fin 8) (p : Fin 1024) (h : Fin 512) :
    upTo (part a xf i p h) 7 = nbrAt a xf (tileIdx i p) h := by
  rw [upTo_seven]
  exact sum_tiles fun r => a (ix2 (tileIdx i p) r) * xf (ix2 r h)

variable (V : (c : Dev nD) → (b : Ref sig .tc) → Buf (Elt Ideal) ((c : Thread nD τ).loc b))

theorem accs1_zero (c : Dev nD) (hn : 0 < cfg1.N) :
    accs1 V c 0 hn = (k1_pay4 (iblk1 V c 0 ⟨0, hn⟩) (iblk1 V c 2 ⟨0, hn⟩) (k1_pay1 (F := Ideal)), k1_pay5 (iblk1 V c 1 ⟨0, hn⟩) (iblk1 V c 2 ⟨0, hn⟩) (k1_pay2 (F := Ideal))) := by
  rw [accs1]

theorem accs1_succ_reset (c : Dev nD) (n : ℕ) (hn : n + 1 < cfg1.N) (hr : (n + 1) % 8 = 0) :
    accs1 V c (n + 1) hn = (k1_pay4 (iblk1 V c 0 ⟨n + 1, hn⟩) (iblk1 V c 2 ⟨n + 1, hn⟩) (k1_pay1 (F := Ideal)), k1_pay5 (iblk1 V c 1 ⟨n + 1, hn⟩) (iblk1 V c 2 ⟨n + 1, hn⟩) (k1_pay2 (F := Ideal))) := by
  rw [accs1, if_pos hr]

theorem accs1_succ_carry (c : Dev nD) (n : ℕ) (hn : n + 1 < cfg1.N) (hr : ¬(n + 1) % 8 = 0) :
    accs1 V c (n + 1) hn = (k1_pay4 (iblk1 V c 0 ⟨n + 1, hn⟩) (iblk1 V c 2 ⟨n + 1, hn⟩) (accs1 V c n (Nat.lt_of_succ_lt hn)).1, k1_pay5 (iblk1 V c 1 ⟨n + 1, hn⟩) (iblk1 V c 2 ⟨n + 1, hn⟩) (accs1 V c n (Nat.lt_of_succ_lt hn)).2) := by
  rw [accs1, if_neg hr]

theorem blk_ud (c : Dev nD) (t : Fin cfg1.N) (i k : Fin 8) (hi : i.val = t.val / 8) (hk : k.val = t.val % 8) (p : Fin 1024) :
    ∀ j : Fin 1024, (iblk1 V c 0 t : Vec Ideal S1024x1024 .f32) (ix2 p j) = (V c main_arg2 : Vec Ideal S8192x8192 .f32) (ix2 (tileIdx i p) (tileIdx k j)) :=
  fun j => iblk1_0_apply V c t p j (tileIdx i p) (tileIdx k j) (by show 1024 * i.val + p.val = _; rw [hi]) (by show 1024 * k.val + j.val = _; rw [hk])

theorem blk_lr (c : Dev nD) (t : Fin cfg1.N) (i k : Fin 8) (hi : i.val = t.val / 8) (hk : k.val = t.val % 8) (p : Fin 1024) :
    ∀ j : Fin 1024, (iblk1 V c 1 t : Vec Ideal S1024x1024 .f32) (ix2 p j) = (V c main_arg3 : Vec Ideal S8192x8192 .f32) (ix2 (tileIdx i p) (tileIdx k j)) :=
  fun j => iblk1_1_apply V c t p j (tileIdx i p) (tileIdx k j) (by show 1024 * i.val + p.val = _; rw [hi]) (by show 1024 * k.val + j.val = _; rw [hk])

theorem blk_x (c : Dev nD) (t : Fin cfg1.N) (k : Fin 8) (hk : k.val = t.val % 8) (h : Fin 512) :
    ∀ j : Fin 1024, (iblk1 V c 2 t : Vec Ideal S1024x512 .f32) (ix2 j h) = (V c main_v0 : Vec Ideal S8192x512 .f32) (ix2 (tileIdx k j) h) :=
  fun j => iblk1_2_apply V c t j h (tileIdx k j) (by show 1024 * k.val + j.val = _; rw [hk])

/-- After point n = 8·i + k each accumulator holds the partial neighbour sum over the column tiles 0..k. -/
theorem accs1_apply (c : Dev nD) : ∀ (n : ℕ) (hn : n < cfg1.N) (i : Fin 8) (hi : i.val = n / 8) (p : Fin 1024) (h : Fin 512),
    (accs1 V c n hn).1 (ix2 p h) = upTo (part (V c main_arg2) (V c main_v0) i p h) (n % 8)
      ∧ (accs1 V c n hn).2 (ix2 p h) = upTo (part (V c main_arg3) (V c main_v0) i p h) (n % 8)
  | 0, hn, i, hi, p, h => by
    rw [accs1_zero V c hn]
    have hx := blk_x V c ⟨0, hn⟩ 0 rfl h
    constructor
    · show k1_pay4 _ _ _ (ix2 p h) = _
      rw [pay4_part _ _ _ _ _ i 0 p h (blk_ud V c ⟨0, hn⟩ i 0 hi rfl p) hx, pay1_apply, zero_add]
      exact (upTo_zero _).symm
    · show k1_pay5 _ _ _ (ix2 p h) = _
      rw [pay5_part _ _ _ _ _ i 0 p h (blk_lr V c ⟨0, hn⟩ i 0 hi rfl p) hx, pay2_apply, zero_add]
      exact (upTo_zero _).symm
  | n + 1, hn, i, hi, p, h => by
    have hN : cfg1.N = 64 := N_1
    by_cases hr : (n + 1) % 8 = 0
    · rw [accs1_succ_reset V c n hn hr, hr]
      have hx := blk_x V c ⟨n + 1, hn⟩ 0 hr.symm h
      constructor
      · show k1_pay4 _ _ _ (ix2 p h) = _
        rw [pay4_part _ _ _ _ _ i 0 p h (blk_ud V c ⟨n + 1, hn⟩ i 0 hi hr.symm p) hx, pay1_apply, zero_add]
        exact (upTo_zero _).symm
      · show k1_pay5 _ _ _ (ix2 p h) = _
        rw [pay5_part _ _ _ _ _ i 0 p h (blk_lr V c ⟨n + 1, hn⟩ i 0 hi hr.symm p) hx, pay2_apply, zero_add]
        exact (upTo_zero _).symm
    · rw [accs1_succ_carry V c n hn hr]
      have hq : n % 8 + 1 < 8 := by omega
      have hk : (⟨n % 8 + 1, hq⟩ : Fin 8).val = (n + 1) % 8 := by show n % 8 + 1 = (n + 1) % 8; omega
      have hx := blk_x V c ⟨n + 1, hn⟩ ⟨n % 8 + 1, hq⟩ hk h
      obtain ⟨e1, e2⟩ := accs1_apply c n (Nat.lt_of_succ_lt hn) i (by omega) p h
      rw [show (n + 1) % 8 = n % 8 + 1 by omega]
      constructor
      · show k1_pay4 _ _ _ (ix2 p h) = _
        rw [pay4_part _ _ _ _ _ i ⟨n % 8 + 1, hq⟩ p h (blk_ud V c ⟨n + 1, hn⟩ i ⟨n % 8 + 1, hq⟩ hi hk p) hx, e1, upTo_succ _ _ hq]
      · show k1_pay5 _ _ _ (ix2 p h) = _
        rw [pay5_part _ _ _ _ _ i ⟨n % 8 + 1, hq⟩ p h (blk_lr V c ⟨n + 1, hn⟩ i ⟨n % 8 + 1, hq⟩ hi hk p) hx, e2, upTo_succ _ _ hq]

/-- The layer's output as one function of the arrays the call was entered with. -/
abbrev layerArr (c : Dev nD) : Vec Ideal S8192x512 .f32 := fun idx =>
  Cert.Spec.layer (fun r h => (V c main_v0 : Vec Ideal S8192x512 .f32) (ix2 r h))
    (fun r j => (V c main_arg2 : Vec Ideal S8192x8192 .f32) (ix2 r j))
    (fun r j => (V c main_arg3 : Vec Ideal S8192x8192 .f32) (ix2 r j))
    (fun o h => (V c main_v7 : Vec Ideal S512x512 .f32) (ix2 h o))
    (fun o => (V c main_v11 : Vec Ideal S1x512 .f32) (ix2 (0 : Fin 1) o))
    (fun o h => (V c main_v8 : Vec Ideal S512x512 .f32) (ix2 h o))
    (fun o => (V c main_v12 : Vec Ideal S1x512 .f32) (ix2 (0 : Fin 1) o))
    (fun o h => (V c main_v9 : Vec Ideal S512x512 .f32) (ix2 h o))
    (fun o => (V c main_v13 : Vec Ideal S1x512 .f32) (ix2 (0 : Fin 1) o))
    (fun p => (V c main_v6 : Vec Ideal S1x512 .f32) (ix2 (0 : Fin 1) p))
    (fun o p => (V c main_v10 : Vec Ideal S512x512 .f32) (ix2 p o))
    (fun o => (V c main_v14 : Vec Ideal S1x512 .f32) (ix2 (0 : Fin 1) o)) (idx 0) (idx 1)

theorem out1_apply (c : Dev nD) (t : Fin cfg1.N) (ht : t.val % 8 = 7) (i : Fin 8) (hi : i.val = t.val / 8) (p : Fin 1024) (o : Fin 512) :
    out1 V c t (ix2 p o) = layerArr V c (ix2 (tileIdx i p) o) := by
  have e3 : ∀ h : Fin 512, (iblk1 V c 3 t : Vec Ideal S1024x512 .f32) (ix2 p h) = (V c main_v0 : Vec Ideal S8192x512 .f32) (ix2 (tileIdx i p) h) :=
    fun h => iblk1_3_apply V c t p h (tileIdx i p) (by show 1024 * i.val + p.val = _; rw [hi])
  have eud : ∀ h : Fin 512, (accs1 V c t.val t.isLt).1 (ix2 p h) = nbrAt (V c main_arg2) (V c main_v0) (tileIdx i p) h :=
    fun h => by rw [(accs1_apply V c t.val t.isLt i hi p h).1, ht, upTo_part_seven]
  have elr : ∀ h : Fin 512, (accs1 V c t.val t.isLt).2 (ix2 p h) = nbrAt (V c main_arg3) (V c main_v0) (tileIdx i p) h :=
    fun h => by rw [(accs1_apply V c t.val t.isLt i hi p h).2, ht, upTo_part_seven]
  unfold out1
  rw [pay6_apply, pay7_apply, pay8_apply]
  simp only [e3, eud, elr, iblk1_4_apply, iblk1_5_apply, iblk1_6_apply, iblk1_7_apply, iblk1_8_apply, iblk1_9_apply,
    iblk1_10_apply, iblk1_11_apply, iblk1_12_apply]
  rfl

theorem flushed13_eq (c : Dev nD) (t : Fin cfg1.N) (hf : (cfg1.win 13).flush t = true) :
    (dat1 V c).flushed 13 t = ((cfg1.win 13).blk t).view.read (Elt Ideal) (layerArr V c) := by
  have hN : cfg1.N = 64 := N_1
  have ht : t.val % 8 = 7 := (flush1_13 t).mp hf
  have hlt : t.val / 8 < 8 := by have := t.isLt; omega
  obtain ⟨-, -, -, -, -, -, -, -, e0, e1⟩ := idx_tiled1 t
  show (cfg1.win 13).cut (grid1.coords t) ((dat1 V c).after 13 t) = _
  rw [after1_13]
  funext y
  obtain ⟨p, o, rfl⟩ : ∃ (p : Fin 1024) (o : Fin 512), y = ix2 p o := ⟨y 0, y 1, eq_ix2 y⟩
  rw [View.read_apply]
  show out1 V c t (ix2 p o) = layerArr V c (((cfg1.win 13).blk t).view.emb (ix2 p o))
  have hemb : ((cfg1.win 13).blk t).view.emb (ix2 p o) = (ix2 (tileIdx ⟨t.val / 8, hlt⟩ p) o : S8192x512.Idx) := by
    funext d; apply Fin.ext
    match d with
    | ⟨0, _⟩ => show win1_13.index t (0 : Fin 2) * 1024 + 1 * p.val = 1024 * (t.val / 8) + p.val; rw [e0]; omega
    | ⟨1, _⟩ => show win1_13.index t (1 : Fin 2) * 512 + 1 * o.val = o.val; rw [e1]; omega
  rw [hemb]
  exact out1_apply V c t ht ⟨t.val / 8, hlt⟩ rfl p o

theorem mem_blk13 (t : Fin cfg1.N) (i : S8192x512.Idx) :
    i ∈ ((cfg1.win 13).blk t).view.set ↔ ∀ a : Fin 2, win1_13.index t a * S1024x512.size a ≤ (i a).val ∧ (i a).val < win1_13.index t a * S1024x512.size a + S1024x512.size a := by
  show i ∈ ((View.whole main_v15).slice (win1_13.rect t)).set ↔ _
  rw [View.set_slice_whole, Rect.mem_set_unit]
  exact Iff.rfl

theorem cover13 (i : S8192x512.Idx) : ∃ t : Fin cfg1.N, (cfg1.win 13).flush t = true ∧ i ∈ ((cfg1.win 13).blk t).view.set := by
  have hN : cfg1.N = 64 := N_1
  have h0 : (i 0).val < 8192 := (i 0).isLt
  have h1 : (i 1).val < 512 := (i 1).isLt
  have hlt : 8 * ((i 0).val / 1024) + 7 < cfg1.N := by omega
  obtain ⟨-, -, -, -, -, -, -, -, e0, e1⟩ := idx_tiled1 ⟨8 * ((i 0).val / 1024) + 7, hlt⟩
  refine ⟨⟨8 * ((i 0).val / 1024) + 7, hlt⟩, (flush1_13 _).mpr (by show (8 * ((i 0).val / 1024) + 7) % 8 = 7; omega), ?_⟩
  rw [mem_blk13]
  intro a
  match a with
  | ⟨0, _⟩ =>
    show win1_13.index ⟨8 * ((i 0).val / 1024) + 7, hlt⟩ (0 : Fin 2) * 1024 ≤ (i 0).val ∧ (i 0).val < win1_13.index ⟨8 * ((i 0).val / 1024) + 7, hlt⟩ (0 : Fin 2) * 1024 + 1024
    rw [e0]
    show (8 * ((i 0).val / 1024) + 7) / 8 * 1024 ≤ (i 0).val ∧ (i 0).val < (8 * ((i 0).val / 1024) + 7) / 8 * 1024 + 1024
    omega
  | ⟨1, _⟩ =>
    show win1_13.index ⟨8 * ((i 0).val / 1024) + 7, hlt⟩ (1 : Fin 2) * 512 ≤ (i 1).val ∧ (i 1).val < win1_13.index ⟨8 * ((i 0).val / 1024) + 7, hlt⟩ (1 : Fin 2) * 512 + 512
    rw [e1]
    omega

theorem final13 (c : Dev nD) : (dat1 V c).arrAt 13 cfg1.N = layerArr V c :=
  (dat1 V c).arrAt_eq_of_cover 13 (layerArr V c) (fun t hf => flushed13_eq V c t hf) cover13

theorem layer_value (c : Dev nD) (r : Fin 8192) (o : Fin 512) :
    ((dat1 V c).arrAt 13 cfg1.N : Vec Ideal S8192x512 .f32) (ix2 r o) = layerArr V c (ix2 r o) := by
  rw [final13 V c]

end Cert.KernelIdeal.IdealValue

end
-- ==== Proof.Results.lean ====
/- The kernel's two results are Spec.pool and Spec.layer of the arguments. -/
import proofs.«125986_j72834055406175_1_alg».proof.Proof.ProgramRun
import proofs.«125986_j72834055406175_1_alg».proof.Proof.HostValues
import proofs.«125986_j72834055406175_1_alg».proof.Proof.PoolValue
import proofs.«125986_j72834055406175_1_alg».proof.Proof.LayerValue

set_option maxRecDepth 16384

noncomputable section

namespace Cert.KernelIdeal.IdealValue

open Cert.KernelIdeal Cert.KernelIdeal.Gen Cert.KernelIdeal.Hand
open Idealize.ShloMosaic Idealize.ShloMosaic.TcCoe Idealize.SL.Sem
open Idealize.ShloMosaic.Pipeline (Dat)
open ValueIdx

variable (m : (ℓ : Loc nD τ sig) → Buf (Elt Ideal) ℓ)

abbrev aRows (c : Dev nD) : Fin 8192 → Fin 512 → EReal :=
  Cert.Spec.rows fun a b h => (m ((c : Thread nD τ).loc main_arg0) : Vec Ideal S128x64x512 .f32) (ix3 a b h)
abbrev aMask (c : Dev nD) : Fin 8192 → EReal := fun r => (m ((c : Thread nD τ).loc main_arg1) : Vec Ideal S8192 .f32) (ix1 r)
abbrev aTotal (c : Dev nD) : EReal :=
  (Host.reduceAdd (F := Ideal) (m ((c : Thread nD τ).loc main_arg1)) (constant (F := Ideal) S_ .f32 0x00000000#32) reducesTo_S8192_S_d0 h_S_) ix0

def poolOf (c : Dev nD) : Fin 512 → EReal :=
  Cert.Spec.pool (aRows m c) (aMask m c)
    (fun o h => (m ((c : Thread nD τ).loc main_arg10) : Vec Ideal S512x512 .f32) (ix2 o h))
    (fun o => (m ((c : Thread nD τ).loc main_arg11) : Vec Ideal S512 .f32) (ix1 o)) (aTotal m c)

def layerOf (c : Dev nD) : Fin 8192 → Fin 512 → EReal :=
  Cert.Spec.layer (aRows m c)
    (fun r j => (m ((c : Thread nD τ).loc main_arg2) : Vec Ideal S8192x8192 .f32) (ix2 r j))
    (fun r j => (m ((c : Thread nD τ).loc main_arg3) : Vec Ideal S8192x8192 .f32) (ix2 r j))
    (fun o h => (m ((c : Thread nD τ).loc main_arg4) : Vec Ideal S512x512 .f32) (ix2 o h))
    (fun o => (m ((c : Thread nD τ).loc main_arg5) : Vec Ideal S512 .f32) (ix1 o))
    (fun o h => (m ((c : Thread nD τ).loc main_arg6) : Vec Ideal S512x512 .f32) (ix2 o h))
    (fun o => (m ((c : Thread nD τ).loc main_arg7) : Vec Ideal S512 .f32) (ix1 o))
    (fun o h => (m ((c : Thread nD τ).loc main_arg8) : Vec Ideal S512x512 .f32) (ix2 o h))
    (fun o => (m ((c : Thread nD τ).loc main_arg9) : Vec Ideal S512 .f32) (ix1 o))
    (poolOf m c)
    (fun o p => (m ((c : Thread nD τ).loc main_arg12) : Vec Ideal S512x512 .f32) (ix2 o p))
    (fun o => (m ((c : Thread nD τ).loc main_arg13) : Vec Ideal S512 .f32) (ix1 o))

theorem hgArr_value (c : Dev nD) (o : Fin 512) :
    (hgArr m c : Vec Ideal S1x512 .f32) (ix2 (0 : Fin 1) o) = poolOf m c o := by
  unfold hgArr
  refine (pool_value (E1 m) c o).trans ?_
  unfold poolOf
  have e0 : (fun (r : Fin 8192) (h : Fin 512) => (E1 m c main_v0 : Vec Ideal S8192x512 .f32) (ix2 r h)) = aRows m c :=
    funext fun r => funext fun h => V1_v0 m c r h
  have e1 : (fun (r : Fin 8192) => (E1 m c main_v1 : Vec Ideal S1x8192 .f32) (ix2 (0 : Fin 1) r)) = aMask m c :=
    funext fun r => V1_v1 m c r
  have e4 : (fun (o h : Fin 512) => (E1 m c main_v4 : Vec Ideal S512x512 .f32) (ix2 h o))
      = fun o h => (m ((c : Thread nD τ).loc main_arg10) : Vec Ideal S512x512 .f32) (ix2 o h) :=
    funext fun o => funext fun h => V1_v4 m c h o
  have e5 : (fun (o : Fin 512) => (E1 m c main_v5 : Vec Ideal S1x512 .f32) (ix2 (0 : Fin 1) o))
      = fun o => (m ((c : Thread nD τ).loc main_arg11) : Vec Ideal S512 .f32) (ix1 o) :=
    funext fun o => V1_v5 m c o
  have e3 : (E1 m c main_v3 : Vec Ideal S1x1 .f32) (ix2 (0 : Fin 1) (0 : Fin 1)) = aTotal m c := V1_v3 m c
  rw [e0, e1, e4, e5, e3]

theorem result_pool (c : Dev nD) (o : Fin 512) :
    (V5 m (outs m) c main_v6 : Vec Ideal S1x512 .f32) (ix2 (0 : Fin 1) o) = poolOf m c o := by
  rw [V5_v6, outs_v6]; exact hgArr_value m c o

theorem outArr_value (c : Dev nD) (r : Fin 8192) (o : Fin 512) :
    (outArr m c : Vec Ideal S8192x512 .f32) (ix2 r o) = layerOf m c r o := by
  unfold outArr
  refine (layer_value (E3 m) c r o).trans ?_
  unfold layerOf layerArr
  have e0 : (fun (r : Fin 8192) (h : Fin 512) => (E3 m c main_v0 : Vec Ideal S8192x512 .f32) (ix2 r h)) = aRows m c :=
    funext fun r => funext fun h => (congrFun (V3_v0 m (outs1 m) c) (ix2 r h)).trans (V1_v0 m c r h)
  have e2 : (fun (r j : Fin 8192) => (E3 m c main_arg2 : Vec Ideal S8192x8192 .f32) (ix2 r j))
      = fun r j => (m ((c : Thread nD τ).loc main_arg2) : Vec Ideal S8192x8192 .f32) (ix2 r j) :=
    funext fun r => funext fun j => congrFun (V3_arg2 m (outs1 m) c) (ix2 r j)
  have e3 : (fun (r j : Fin 8192) => (E3 m c main_arg3 : Vec Ideal S8192x8192 .f32) (ix2 r j))
      = fun r j => (m ((c : Thread nD τ).loc main_arg3) : Vec Ideal S8192x8192 .f32) (ix2 r j) :=
    funext fun r => funext fun j => congrFun (V3_arg3 m (outs1 m) c) (ix2 r j)
  have e7 : (fun (o h : Fin 512) => (E3 m c main_v7 : Vec Ideal S512x512 .f32) (ix2 h o))
      = fun o h => (m ((c : Thread nD τ).loc main_arg4) : Vec Ideal S512x512 .f32) (ix2 o h) :=
    funext fun o => funext fun h => V3_v7 m (outs1 m) c h o
  have e11 : (fun (o : Fin 512) => (E3 m c main_v11 : Vec Ideal S1x512 .f32) (ix2 (0 : Fin 1) o))
      = fun o => (m ((c : Thread nD τ).loc main_arg5) : Vec Ideal S512 .f32) (ix1 o) :=
    funext fun o => V3_v11 m (outs1 m) c o
  have e8 : (fun (o h : Fin 512) => (E3 m c main_v8 : Vec Ideal S512x512 .f32) (ix2 h o))
      = fun o h => (m ((c : Thread nD τ).loc main_arg6) : Vec Ideal S512x512 .f32) (ix2 o h) :=
    funext fun o => funext fun h => V3_v8 m (outs1 m) c h o
  have e12 : (fun (o : Fin 512) => (E3 m c main_v12 : Vec Ideal S1x512 .f32) (ix2 (0 : Fin 1) o))
      = fun o => (m ((c : Thread nD τ).loc main_arg7) : Vec Ideal S512 .f32) (ix1 o) :=
    funext fun o => V3_v12 m (outs1 m) c o
  have e9 : (fun (o h : Fin 512) => (E3 m c main_v9 : Vec Ideal S512x512 .f32) (ix2 h o))
      = fun o h => (m ((c : Thread nD τ).loc main_arg8) : Vec Ideal S512x512 .f32) (ix2 o h) :=
    funext fun o => funext fun h => V3_v9 m (outs1 m) c h o
  have e13 : (fun (o : Fin 512) => (E3 m c main_v13 : Vec Ideal S1x512 .f32) (ix2 (0 : Fin 1) o))
      = fun o => (m ((c : Thread nD τ).loc main_arg9) : Vec Ideal S512 .f32) (ix1 o) :=
    funext fun o => V3_v13 m (outs1 m) c o
  have e6 : (fun (p : Fin 512) => (E3 m c main_v6 : Vec Ideal S1x512 .f32) (ix2 (0 : Fin 1) p)) = poolOf m c :=
    funext fun p => by
      have h6 : (E3 m c main_v6 : Vec Ideal S1x512 .f32) = hgArr m c :=
        (V3_v6 m (outs1 m) c).trans (by unfold outs1; exact dif_pos rfl)
      rw [h6]; exact hgArr_value m c p
  have e10 : (fun (o p : Fin 512) => (E3 m c main_v10 : Vec Ideal S512x512 .f32) (ix2 p o))
      = fun o p => (m ((c : Thread nD τ).loc main_arg12) : Vec Ideal S512x512 .f32) (ix2 o p) :=
    funext fun o => funext fun p => V3_v10 m (outs1 m) c p o
  have e14 : (fun (o : Fin 512) => (E3 m c main_v14 : Vec Ideal S1x512 .f32) (ix2 (0 : Fin 1) o))
      = fun o => (m ((c : Thread nD τ).loc main_arg13) : Vec Ideal S512 .f32) (ix1 o) :=
    funext fun o => V3_v14 m (outs1 m) c o
  rw [e0, e2, e3, e7, e11, e8, e12, e9, e13, e6, e10, e14]

theorem result_layer (c : Dev nD) (a : Fin 128) (b : Fin 64) (o : Fin 512) :
    (V5 m (outs m) c main_v16 : Vec Ideal S128x64x512 .f32) (ix3 a b o)
      = layerOf m c ⟨a.val * 64 + b.val, by have := a.isLt; have := b.isLt; omega⟩ o := by
  rw [V5_v16, outs_v15]; exact outArr_value m c _ o

end Cert.KernelIdeal.IdealValue

end
-- ==== Proof.RefValue.lean ====
/- The reference's stages read at an index: its two results are Spec.pool and Spec.layer of the arguments. -/
import proofs.«125986_j72834055406175_1_alg».proof.Proof.Gen.ReferenceIdeal.Read
import proofs.«125986_j72834055406175_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem
open ValueIdx

variable (x0 : (⟨S128x64x512, .f32⟩ : BufTy).Contents (Elt Ideal)) (x1 : (⟨S8192, .f32⟩ : BufTy).Contents (Elt Ideal))
  (x2 x3 : (⟨S8192x8192, .f32⟩ : BufTy).Contents (Elt Ideal))
  (x4 : (⟨S512x512, .f32⟩ : BufTy).Contents (Elt Ideal)) (x5 : (⟨S512, .f32⟩ : BufTy).Contents (Elt Ideal))
  (x6 : (⟨S512x512, .f32⟩ : BufTy).Contents (Elt Ideal)) (x7 : (⟨S512, .f32⟩ : BufTy).Contents (Elt Ideal))
  (x8 : (⟨S512x512, .f32⟩ : BufTy).Contents (Elt Ideal)) (x9 : (⟨S512, .f32⟩ : BufTy).Contents (Elt Ideal))
  (x10 : (⟨S512x512, .f32⟩ : BufTy).Contents (Elt Ideal)) (x11 : (⟨S512, .f32⟩ : BufTy).Contents (Elt Ideal))
  (x12 : (⟨S512x512, .f32⟩ : BufTy).Contents (Elt Ideal)) (x13 : (⟨S512, .f32⟩ : BufTy).Contents (Elt Ideal))

abbrev total : EReal := val_main_v20 (F := Ideal) x1 ix0

theorem ix1_of_val {n : Nat} (j : (⟨1, ![n]⟩ : Shape).Idx) (a : Fin n) (h0 : (j 0).val = a.val) : j = ix1 a :=
  funext fun d => Fin.ext (by match d with | ⟨0, _⟩ => exact h0)

theorem ix2_of_val {n0 n1 : Nat} (j : (⟨2, ![n0, n1]⟩ : Shape).Idx) (a : Fin n0) (b : Fin n1)
    (h0 : (j 0).val = a.val) (h1 : (j 1).val = b.val) : j = ix2 a b :=
  funext fun d => Fin.ext (by match d with | ⟨0, _⟩ => exact h0 | ⟨1, _⟩ => exact h1)

theorem ix3_of_val {n0 n1 n2 : Nat} (j : (⟨3, ![n0, n1, n2]⟩ : Shape).Idx) (a : Fin n0) (b : Fin n1) (c : Fin n2)
    (h0 : (j 0).val = a.val) (h1 : (j 1).val = b.val) (h2 : (j 2).val = c.val) : j = ix3 a b c :=
  funext fun d => Fin.ext (by match d with | ⟨0, _⟩ => exact h0 | ⟨1, _⟩ => exact h1 | ⟨2, _⟩ => exact h2)

abbrev XF : Fin 8192 → Fin 512 → EReal := Cert.Spec.rows fun a b h => x0 (ix3 a b h)

theorem v0_at (r : Fin 8192) (h : Fin 512) : val_main_v0 (F := Ideal) x0 (ix2 r h) = XF x0 r h := by
  rw [val_main_v0_apply]
  show x0 _ = x0 _
  congr 1
  refine ix3_of_val _ _ _ _ ?_ ?_ ?_
  · show (r.val * 512 + h.val) / 32768 = r.val / 64
    have := h.isLt; omega
  · show (r.val * 512 + h.val) / 512 % 64 = r.val % 64
    have := h.isLt; omega
  · show (r.val * 512 + h.val) % 512 = h.val
    have := h.isLt; omega

theorem v6_at (r : Fin 8192) (o : Fin 512) : val_main_v6 (F := Ideal) x5 (ix2 r o) = x5 (ix1 o) := by
  rw [val_main_v6_apply, val_main_v5_apply,
    show idx_main_v5 (idx_main_v6 (ix2 r o)) = ix1 o from ix1_of_val _ _ rfl]

theorem v11_at (r : Fin 8192) (o : Fin 512) : val_main_v11 (F := Ideal) x7 (ix2 r o) = x7 (ix1 o) := by
  rw [val_main_v11_apply, val_main_v10_apply,
    show idx_main_v10 (idx_main_v11 (ix2 r o)) = ix1 o from ix1_of_val _ _ rfl]

theorem v17_at (r : Fin 8192) (o : Fin 512) : val_main_v17 (F := Ideal) x9 (ix2 r o) = x9 (ix1 o) := by
  rw [val_main_v17_apply, val_main_v16_apply,
    show idx_main_v16 (idx_main_v17 (ix2 r o)) = ix1 o from ix1_of_val _ _ rfl]

theorem v25_at (r : Fin 8192) (o : Fin 512) : val_main_v25 (F := Ideal) x11 (ix2 r o) = x11 (ix1 o) := by
  rw [val_main_v25_apply, val_main_v24_apply,
    show idx_main_v24 (idx_main_v25 (ix2 r o)) = ix1 o from ix1_of_val _ _ rfl]

theorem v1_at (r : Fin 8192) (h : Fin 512) :
    val_main_v1 (F := Ideal) x0 x2 (ix2 r h) = Cert.Spec.nbr (fun r j => x2 (ix2 r j)) (XF x0) r h := by
  rw [val_main_v1_apply]
  show _ = ∑ j : Fin 8192, x2 (ix2 r j) * XF x0 j h
  refine Finset.sum_congr rfl fun j _ => ?_
  rw [show lidx_main_v1 (ix2 r h) j = ix2 r j from ix2_of_val _ _ _ rfl rfl,
    show ridx_main_v1 (ix2 r h) j = ix2 j h from ix2_of_val _ _ _ rfl rfl, v0_at]

theorem v2_at (r : Fin 8192) (h : Fin 512) :
    val_main_v2 (F := Ideal) x0 x3 (ix2 r h) = Cert.Spec.nbr (fun r j => x3 (ix2 r j)) (XF x0) r h := by
  rw [val_main_v2_apply]
  show _ = ∑ j : Fin 8192, x3 (ix2 r j) * XF x0 j h
  refine Finset.sum_congr rfl fun j _ => ?_
  rw [show lidx_main_v2 (ix2 r h) j = ix2 r j from ix2_of_val _ _ _ rfl rfl,
    show ridx_main_v2 (ix2 r h) j = ix2 j h from ix2_of_val _ _ _ rfl rfl, v0_at]

theorem v4_at (r : Fin 8192) (o : Fin 512) :
    val_main_v4 (F := Ideal) x0 x4 (ix2 r o) = ∑ h : Fin 512, XF x0 r h * x4 (ix2 o h) := by
  rw [val_main_v4_apply]
  refine Finset.sum_congr rfl fun h _ => ?_
  rw [val_main_v3_apply,
    show lidx_main_v4 (ix2 r o) h = ix2 r h from ix2_of_val _ _ _ rfl rfl,
    show idx_main_v3 (ridx_main_v4 (ix2 r o) h) = ix2 o h from ix2_of_val _ _ _ rfl rfl, v0_at]

theorem v9_at (r : Fin 8192) (o : Fin 512) :
    val_main_v9 (F := Ideal) x0 x2 x6 (ix2 r o) = ∑ h : Fin 512, Cert.Spec.nbr (fun r j => x2 (ix2 r j)) (XF x0) r h * x6 (ix2 o h) := by
  rw [val_main_v9_apply]
  refine Finset.sum_congr rfl fun h _ => ?_
  rw [val_main_v8_apply,
    show lidx_main_v9 (ix2 r o) h = ix2 r h from ix2_of_val _ _ _ rfl rfl,
    show idx_main_v8 (ridx_main_v9 (ix2 r o) h) = ix2 o h from ix2_of_val _ _ _ rfl rfl, v1_at]

theorem v15_at (r : Fin 8192) (o : Fin 512) :
    val_main_v15 (F := Ideal) x0 x3 x8 (ix2 r o) = ∑ h : Fin 512, Cert.Spec.nbr (fun r j => x3 (ix2 r j)) (XF x0) r h * x8 (ix2 o h) := by
  rw [val_main_v15_apply]
  refine Finset.sum_congr rfl fun h _ => ?_
  rw [val_main_v14_apply,
    show lidx_main_v15 (ix2 r o) h = ix2 r h from ix2_of_val _ _ _ rfl rfl,
    show idx_main_v14 (ridx_main_v15 (ix2 r o) h) = ix2 o h from ix2_of_val _ _ _ rfl rfl, v2_at]

theorem v23_at (r : Fin 8192) (o : Fin 512) :
    val_main_v23 (F := Ideal) x0 x10 (ix2 r o) = ∑ h : Fin 512, XF x0 r h * x10 (ix2 o h) := by
  rw [val_main_v23_apply]
  refine Finset.sum_congr rfl fun h _ => ?_
  rw [val_main_v22_apply,
    show lidx_main_v23 (ix2 r o) h = ix2 r h from ix2_of_val _ _ _ rfl rfl,
    show idx_main_v22 (ridx_main_v23 (ix2 r o) h) = ix2 o h from ix2_of_val _ _ _ rfl rfl, v0_at]

theorem v7_at (r : Fin 8192) (o : Fin 512) :
    val_main_v7 (F := Ideal) x0 x4 x5 (ix2 r o) = (∑ h : Fin 512, XF x0 r h * x4 (ix2 o h)) + x5 (ix1 o) := by
  rw [val_main_v7_apply, Ideal.addf_def, v4_at, v6_at]

theorem v12_at (r : Fin 8192) (o : Fin 512) :
    val_main_v12 (F := Ideal) x0 x2 x6 x7 (ix2 r o)
      = (∑ h : Fin 512, Cert.Spec.nbr (fun r j => x2 (ix2 r j)) (XF x0) r h * x6 (ix2 o h)) + x7 (ix1 o) := by
  rw [val_main_v12_apply, Ideal.addf_def, v9_at, v11_at]

theorem v18_at (r : Fin 8192) (o : Fin 512) :
    val_main_v18 (F := Ideal) x0 x3 x8 x9 (ix2 r o)
      = (∑ h : Fin 512, Cert.Spec.nbr (fun r j => x3 (ix2 r j)) (XF x0) r h * x8 (ix2 o h)) + x9 (ix1 o) := by
  rw [val_main_v18_apply, Ideal.addf_def, v15_at, v17_at]

theorem v19_at (r : Fin 8192) (o : Fin 512) :
    val_main_v19 (F := Ideal) x0 x2 x3 x4 x5 x6 x7 x8 x9 (ix2 r o)
      = (((∑ h : Fin 512, XF x0 r h * x4 (ix2 o h)) + x5 (ix1 o))
          + ((∑ h : Fin 512, Cert.Spec.nbr (fun r j => x2 (ix2 r j)) (XF x0) r h * x6 (ix2 o h)) + x7 (ix1 o)))
        + ((∑ h : Fin 512, Cert.Spec.nbr (fun r j => x3 (ix2 r j)) (XF x0) r h * x8 (ix2 o h)) + x9 (ix1 o)) := by
  rw [val_main_v19_apply, Ideal.addf_def, val_main_v13_apply, Ideal.addf_def, v7_at, v12_at, v18_at]

theorem v27_at (r : Fin 8192) (o : Fin 512) :
    val_main_v27 (F := Ideal) x0 x10 x11 (ix2 r o)
      = max ((∑ h : Fin 512, XF x0 r h * x10 (ix2 o h)) + x11 (ix1 o)) 0 := by
  rw [val_main_v27_apply, Ideal.maximumf_def, val_main_v26_apply, Ideal.addf_def, v23_at, v25_at,
    val_main_call0_v0_apply, val_main_call0_cst_apply, Ideal.ofBits_def, Ideal.ofBits_zero_f32]

theorem v28_at (o : Fin 512) :
    val_main_v28 (F := Ideal) x0 x1 x10 x11 (ix2 (0 : Fin 1) o)
      = ∑ r : Fin 8192, x1 (ix1 r) * max ((∑ h : Fin 512, XF x0 r h * x10 (ix2 o h)) + x11 (ix1 o)) 0 := by
  rw [val_main_v28_apply]
  refine Finset.sum_congr rfl fun r _ => ?_
  rw [val_main_v21_apply,
    show idx_main_v21 (lidx_main_v28 (ix2 (0 : Fin 1) o) r) = ix1 r from ix1_of_val _ _ rfl,
    show ridx_main_v28 (ix2 (0 : Fin 1) o) r = ix2 r o from ix2_of_val _ _ _ rfl rfl, v27_at]

theorem ref_pool (o : Fin 512) :
    val_main_v30 (F := Ideal) x0 x1 x10 x11 (ix2 (0 : Fin 1) o)
      = Cert.Spec.pool (Cert.Spec.rows fun a b h => x0 (ix3 a b h)) (fun r => x1 (ix1 r)) (fun o h => x10 (ix2 o h))
          (fun o => x11 (ix1 o)) (total x1) o := by
  rw [val_main_v30_apply, Ideal.hostDivf_def, v28_at, val_main_v29_apply]
  rfl

theorem v35_at (r : Fin 8192) (o : Fin 512) :
    val_main_v35 (F := Ideal) x0 x1 x10 x11 x12 x13 (ix2 r o)
      = (∑ p : Fin 512, val_main_v30 (F := Ideal) x0 x1 x10 x11 (ix2 (0 : Fin 1) p) * x12 (ix2 o p)) + x13 (ix1 o) := by
  rw [val_main_v35_apply,
    show idx_main_v35 (ix2 r o) = ix2 (0 : Fin 1) o from ix2_of_val _ _ _ rfl rfl,
    val_main_v34_apply, Ideal.addf_def, val_main_v33_apply,
    show idx_main_v33 (ix2 (0 : Fin 1) o) = ix1 o from ix1_of_val _ _ rfl, val_main_v32_apply]
  congr 1
  refine Finset.sum_congr rfl fun p _ => ?_
  rw [val_main_v31_apply,
    show lidx_main_v32 (ix2 (0 : Fin 1) o) p = ix2 (0 : Fin 1) p from ix2_of_val _ _ _ rfl rfl,
    show idx_main_v31 (ridx_main_v32 (ix2 (0 : Fin 1) o) p) = ix2 o p from ix2_of_val _ _ _ rfl rfl]

theorem v37_at (r : Fin 8192) (o : Fin 512) :
    val_main_v37 (F := Ideal) x0 x1 x2 x3 x4 x5 x6 x7 x8 x9 x10 x11 x12 x13 (ix2 r o)
      = Cert.Spec.layer (Cert.Spec.rows fun a b h => x0 (ix3 a b h)) (fun r j => x2 (ix2 r j)) (fun r j => x3 (ix2 r j))
          (fun o h => x4 (ix2 o h)) (fun o => x5 (ix1 o)) (fun o h => x6 (ix2 o h)) (fun o => x7 (ix1 o))
          (fun o h => x8 (ix2 o h)) (fun o => x9 (ix1 o))
          (fun p => val_main_v30 (F := Ideal) x0 x1 x10 x11 (ix2 (0 : Fin 1) p))
          (fun o p => x12 (ix2 o p)) (fun o => x13 (ix1 o)) r o := by
  rw [val_main_v37_apply, Ideal.maximumf_def, val_main_v36_apply, Ideal.addf_def, v19_at, v35_at,
    val_main_call1_v0_apply, val_main_call1_cst_apply, Ideal.ofBits_def, Ideal.ofBits_zero_f32]
  rfl

theorem ref_layer (a : Fin 128) (b : Fin 64) (o : Fin 512) :
    val_main_v38 (F := Ideal) x0 x1 x2 x3 x4 x5 x6 x7 x8 x9 x10 x11 x12 x13 (ix3 a b o)
      = Cert.Spec.layer (Cert.Spec.rows fun a b h => x0 (ix3 a b h)) (fun r j => x2 (ix2 r j)) (fun r j => x3 (ix2 r j))
          (fun o h => x4 (ix2 o h)) (fun o => x5 (ix1 o)) (fun o h => x6 (ix2 o h)) (fun o => x7 (ix1 o))
          (fun o h => x8 (ix2 o h)) (fun o => x9 (ix1 o))
          (fun p => val_main_v30 (F := Ideal) x0 x1 x10 x11 (ix2 (0 : Fin 1) p))
          (fun o p => x12 (ix2 o p)) (fun o => x13 (ix1 o))
          ⟨a.val * 64 + b.val, by have := a.isLt; have := b.isLt; omega⟩ o := by
  rw [val_main_v38_apply,
    show idx_main_v38 (ix3 a b o)
        = ix2 (⟨a.val * 64 + b.val, by have := a.isLt; have := b.isLt; omega⟩ : Fin 8192) o from
      ix2_of_val _ _ _
        (by show ((a.val * 64 + b.val) * 512 + o.val) / 512 = a.val * 64 + b.val
            have := o.isLt; omega)
        (by show ((a.val * 64 + b.val) * 512 + o.val) % 512 = o.val
            have := o.isLt; omega),
    v37_at]

end Cert.ReferenceIdeal.RefValue

end
-- ==== Proof.Bridge.lean ====
/- Both programs' results are the same two functions of the same arguments. -/
import proofs.«125986_j72834055406175_1_alg».proof.Proof.Results
import proofs.«125986_j72834055406175_1_alg».proof.Proof.RefValue

set_option maxRecDepth 16384

noncomputable section

namespace Cert.Bridge

open Idealize.ShloMosaic Idealize.ShloMosaic.TcCoe Idealize.SL.Sem
open ValueIdx
open Cert.KernelIdeal Cert.KernelIdeal.Gen Cert.KernelIdeal.Hand Cert.KernelIdeal.IdealValue

variable (m : (ℓ : Loc nD τ sig) → Buf (Elt Ideal) ℓ) (c : Dev nD)

theorem total_eq : Cert.ReferenceIdeal.RefValue.total (m ((c : Thread nD τ).loc main_arg1)) = aTotal m c := rfl

theorem pool_eq :
    Cert.ReferenceIdeal.Read.val_main_v30 (F := Ideal) (m ((c : Thread nD τ).loc main_arg0)) (m ((c : Thread nD τ).loc main_arg1))
        (m ((c : Thread nD τ).loc main_arg10)) (m ((c : Thread nD τ).loc main_arg11))
      = V5 m (outs m) c main_v6 := by
  funext i
  obtain ⟨p, o, rfl⟩ : ∃ (p : Fin 1) (o : Fin 512), i = ix2 p o := ⟨i 0, i 1, eq_ix2 i⟩
  obtain rfl : p = 0 := Subsingleton.elim _ _
  refine (Cert.ReferenceIdeal.RefValue.ref_pool _ _ _ _ o).trans ?_
  refine Eq.trans ?_ (result_pool m c o).symm
  unfold poolOf
  rw [total_eq]

theorem layer_eq :
    Cert.ReferenceIdeal.Read.val_main_v38 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10))
        (m ((c : Thread nD τ).loc main_arg11)) (m ((c : Thread nD τ).loc main_arg12)) (m ((c : Thread nD τ).loc main_arg13))
      = V5 m (outs m) c main_v16 := by
  funext i
  obtain ⟨a, b, o, rfl⟩ : ∃ (a : Fin 128) (b : Fin 64) (o : Fin 512), i = ix3 a b o := ⟨i 0, i 1, i 2, eq_ix3 i⟩
  refine (Cert.ReferenceIdeal.RefValue.ref_layer _ _ _ _ _ _ _ _ _ _ _ _ _ _ a b o).trans ?_
  refine Eq.trans ?_ (result_layer m c a b o).symm
  unfold layerOf
  have hp : (fun p : Fin 512 => Cert.ReferenceIdeal.Read.val_main_v30 (F := Ideal) (m ((c : Thread nD τ).loc main_arg0))
      (m ((c : Thread nD τ).loc main_arg1)) (m ((c : Thread nD τ).loc main_arg10)) (m ((c : Thread nD τ).loc main_arg11)) (ix2 (0 : Fin 1) p))
      = poolOf m c := funext fun p => by rw [pool_eq m c]; exact result_pool m c p
  rw [hp]

end Cert.Bridge

end
-- ==== Proof.lean ====
/- A sum split into tiles is the same sum over the extended reals, so the tiled kernel and the whole reference agree entry by entry. -/
import proofs.«125986_j72834055406175_1_alg».proof.Defs
import proofs.«125986_j72834055406175_1_alg».proof.Proof.Gen.Kernel
import proofs.«125986_j72834055406175_1_alg».proof.Proof.Gen.KernelIdeal
import proofs.«125986_j72834055406175_1_alg».proof.Proof.Gen.ReferenceIdeal
import proofs.«125986_j72834055406175_1_alg».proof.Proof.Gen.ReferenceIdeal.Run
import proofs.«125986_j72834055406175_1_alg».proof.Proof.Gen.ReferenceIdeal.Read
import proofs.«125986_j72834055406175_1_alg».proof.Proof.Gen.Pre_finite_inputs
import proofs.«125986_j72834055406175_1_alg».proof.Proof.ProgramRun
import proofs.«125986_j72834055406175_1_alg».proof.Proof.ProgramRunBits
import proofs.«125986_j72834055406175_1_alg».proof.Proof.Bridge
import Idealize.ShloMosaic.Adequacy
import Idealize.ShloMosaic.Init

noncomputable section

namespace Cert.Proof

open Idealize.ShloMosaic Idealize.ShloMosaic.TcCoe Idealize.SL.Sem

/-- No host operation and no region writes an argument: each ends at the last valuation, which has it as launched. -/
theorem frame_k : Cert.frame_Kernel := fun m ρ _ =>
  (θ_run Cert.Kernel.defs _ _).mono (fun _ h c => ⟨(h c Cert.Kernel.main_arg0 (by decide)).trans (Cert.Kernel.Gen.V5_main_arg0 m _ c),
    (h c Cert.Kernel.main_arg1 (by decide)).trans (Cert.Kernel.Gen.V5_main_arg1 m _ c),
    (h c Cert.Kernel.main_arg2 (by decide)).trans (Cert.Kernel.Gen.V5_main_arg2 m _ c),
    (h c Cert.Kernel.main_arg3 (by decide)).trans (Cert.Kernel.Gen.V5_main_arg3 m _ c),
    (h c Cert.Kernel.main_arg4 (by decide)).trans (Cert.Kernel.Gen.V5_main_arg4 m _ c),
    (h c Cert.Kernel.main_arg5 (by decide)).trans (Cert.Kernel.Gen.V5_main_arg5 m _ c),
    (h c Cert.Kernel.main_arg6 (by decide)).trans (Cert.Kernel.Gen.V5_main_arg6 m _ c),
    (h c Cert.Kernel.main_arg7 (by decide)).trans (Cert.Kernel.Gen.V5_main_arg7 m _ c),
    (h c Cert.Kernel.main_arg8 (by decide)).trans (Cert.Kernel.Gen.V5_main_arg8 m _ c),
    (h c Cert.Kernel.main_arg9 (by decide)).trans (Cert.Kernel.Gen.V5_main_arg9 m _ c),
    (h c Cert.Kernel.main_arg10 (by decide)).trans (Cert.Kernel.Gen.V5_main_arg10 m _ c),
    (h c Cert.Kernel.main_arg11 (by decide)).trans (Cert.Kernel.Gen.V5_main_arg11 m _ c),
    (h c Cert.Kernel.main_arg12 (by decide)).trans (Cert.Kernel.Gen.V5_main_arg12 m _ c),
    (h c Cert.Kernel.main_arg13 (by decide)).trans (Cert.Kernel.Gen.V5_main_arg13 m _ c)⟩)
    (Cert.Kernel.Hand.value_main (F := Bits) m ρ)

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both runs end at the same two functions of the arguments (Bridge). -/
theorem algebraic : Cert.algebraic_KernelIdeal_ReferenceIdeal := by
  intro m ρ m' ρ' _ hagree
  refine ⟨fun c => Cert.KernelIdeal.Gen.V5 m (Cert.KernelIdeal.Hand.outs m) c Cert.KernelIdeal.main_v16,
    fun c => Cert.KernelIdeal.Gen.V5 m (Cert.KernelIdeal.Hand.outs m) c Cert.KernelIdeal.main_v6,
    (θ_run Cert.KernelIdeal.defs _ _).mono (fun _ h c => ⟨h c Cert.KernelIdeal.main_v16 (by decide), h c Cert.KernelIdeal.main_v6 (by decide),
    (h c Cert.KernelIdeal.main_arg0 (by decide)).trans (Cert.KernelIdeal.Gen.V5_main_arg0 m _ c),
    (h c Cert.KernelIdeal.main_arg1 (by decide)).trans (Cert.KernelIdeal.Gen.V5_main_arg1 m _ c),
    (h c Cert.KernelIdeal.main_arg2 (by decide)).trans (Cert.KernelIdeal.Gen.V5_main_arg2 m _ c),
    (h c Cert.KernelIdeal.main_arg3 (by decide)).trans (Cert.KernelIdeal.Gen.V5_main_arg3 m _ c),
    (h c Cert.KernelIdeal.main_arg4 (by decide)).trans (Cert.KernelIdeal.Gen.V5_main_arg4 m _ c),
    (h c Cert.KernelIdeal.main_arg5 (by decide)).trans (Cert.KernelIdeal.Gen.V5_main_arg5 m _ c),
    (h c Cert.KernelIdeal.main_arg6 (by decide)).trans (Cert.KernelIdeal.Gen.V5_main_arg6 m _ c),
    (h c Cert.KernelIdeal.main_arg7 (by decide)).trans (Cert.KernelIdeal.Gen.V5_main_arg7 m _ c),
    (h c Cert.KernelIdeal.main_arg8 (by decide)).trans (Cert.KernelIdeal.Gen.V5_main_arg8 m _ c),
    (h c Cert.KernelIdeal.main_arg9 (by decide)).trans (Cert.KernelIdeal.Gen.V5_main_arg9 m _ c),
    (h c Cert.KernelIdeal.main_arg10 (by decide)).trans (Cert.KernelIdeal.Gen.V5_main_arg10 m _ c),
    (h c Cert.KernelIdeal.main_arg11 (by decide)).trans (Cert.KernelIdeal.Gen.V5_main_arg11 m _ c),
    (h c Cert.KernelIdeal.main_arg12 (by decide)).trans (Cert.KernelIdeal.Gen.V5_main_arg12 m _ c),
    (h c Cert.KernelIdeal.main_arg13 (by decide)).trans (Cert.KernelIdeal.Gen.V5_main_arg13 m _ c)⟩)
      (Cert.KernelIdeal.Hand.value_main (F := Ideal) m ρ), ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v38_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2.1, (hagree c).2.2.2.2.2.2.2.2.2.2.1,
      (hagree c).2.2.2.2.2.2.2.2.2.2.2.1, (hagree c).2.2.2.2.2.2.2.2.2.2.2.2.1, (hagree c).2.2.2.2.2.2.2.2.2.2.2.2.2]
    exact Cert.Bridge.layer_eq m c
  · rw [Cert.ReferenceIdeal.Read.val_main_v30_eq, (hagree c).1, (hagree c).2.1, (hagree c).2.2.2.2.2.2.2.2.2.2.1,
      (hagree c).2.2.2.2.2.2.2.2.2.2.2.1]
    exact Cert.Bridge.pool_eq m c

/-- The idealized kernel's frame is its run with the two results dropped. -/
theorem frame_ki : Cert.frame_KernelIdeal := fun m ρ _ =>
  (θ_run Cert.KernelIdeal.defs _ _).mono (fun _ h c => ⟨(h c Cert.KernelIdeal.main_arg0 (by decide)).trans (Cert.KernelIdeal.Gen.V5_main_arg0 m _ c),
    (h c Cert.KernelIdeal.main_arg1 (by decide)).trans (Cert.KernelIdeal.Gen.V5_main_arg1 m _ c),
    (h c Cert.KernelIdeal.main_arg2 (by decide)).trans (Cert.KernelIdeal.Gen.V5_main_arg2 m _ c),
    (h c Cert.KernelIdeal.main_arg3 (by decide)).trans (Cert.KernelIdeal.Gen.V5_main_arg3 m _ c),
    (h c Cert.KernelIdeal.main_arg4 (by decide)).trans (Cert.KernelIdeal.Gen.V5_main_arg4 m _ c),
    (h c Cert.KernelIdeal.main_arg5 (by decide)).trans (Cert.KernelIdeal.Gen.V5_main_arg5 m _ c),
    (h c Cert.KernelIdeal.main_arg6 (by decide)).trans (Cert.KernelIdeal.Gen.V5_main_arg6 m _ c),
    (h c Cert.KernelIdeal.main_arg7 (by decide)).trans (Cert.KernelIdeal.Gen.V5_main_arg7 m _ c),
    (h c Cert.KernelIdeal.main_arg8 (by decide)).trans (Cert.KernelIdeal.Gen.V5_main_arg8 m _ c),
    (h c Cert.KernelIdeal.main_arg9 (by decide)).trans (Cert.KernelIdeal.Gen.V5_main_arg9 m _ c),
    (h c Cert.KernelIdeal.main_arg10 (by decide)).trans (Cert.KernelIdeal.Gen.V5_main_arg10 m _ c),
    (h c Cert.KernelIdeal.main_arg11 (by decide)).trans (Cert.KernelIdeal.Gen.V5_main_arg11 m _ c),
    (h c Cert.KernelIdeal.main_arg12 (by decide)).trans (Cert.KernelIdeal.Gen.V5_main_arg12 m _ c),
    (h c Cert.KernelIdeal.main_arg13 (by decide)).trans (Cert.KernelIdeal.Gen.V5_main_arg13 m _ c)⟩)
    (Cert.KernelIdeal.Hand.value_main (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
